-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x4096 .f32) (main_arg2 : FVec F S128x128 .f32) (main_arg3 : FVec F S128 .f32) (main_arg4 : FVec F S128x128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S8x4096 : Shape := ⟨2, ![8, 4096]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S1024x1024 : Shape := ⟨2, ![1024, 1024]⟩
abbrev S1024x128 : Shape := ⟨2, ![1024, 128]⟩
abbrev S1024x1 : Shape := ⟨2, ![1024, 1]⟩
abbrev S1x128 : Shape := ⟨2, ![1, 128]⟩

abbrev nBuf : Space → Nat
  | .hbm => 35
  | .vmem => 54
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4096x128, .f32⟩
  | .hbm, ⟨7, _⟩ => ⟨S8x4096, .f32⟩
  | .hbm, ⟨8, _⟩ => ⟨S4096x1, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .i1⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x128, .f32⟩
  | .hbm, ⟨25, _⟩ => ⟨S4096x4096, .bf16⟩
  | .hbm, ⟨26, _⟩ => ⟨S4096x4096, .bf16⟩
  | .hbm, ⟨27, _⟩ => ⟨S4096x4096, .bf16⟩
  | .hbm, ⟨28, _⟩ => ⟨S128x128, .f32⟩
  | .hbm, ⟨29, _⟩ => ⟨S128x128, .f32⟩
  | .hbm, ⟨30, _⟩ => ⟨S1x128, .f32⟩
  | .hbm, ⟨31, _⟩ => ⟨S1x128, .f32⟩
  | .hbm, ⟨32, _⟩ => ⟨S4096x128, .f32⟩
  | .hbm, ⟨33, _⟩ => ⟨S4096x128, .f32⟩
  | .hbm, ⟨34, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S512x128, .f32⟩
  | .local _ .vmem, ⟨3, _⟩ => ⟨S512x128, .f32⟩
  | .local _ .vmem, ⟨4, _⟩ => ⟨S8x4096, .f32⟩
  | .local _ .vmem, ⟨5, _⟩ => ⟨S8x4096, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x1024, .bf16⟩
  | .local _ .vmem, ⟨34, _⟩ => ⟨S1024x1024, .bf16⟩
  | .local _ .vmem, ⟨35, _⟩ => ⟨S1024x1024, .f32⟩
  | .local _ .vmem, ⟨36, _⟩ => ⟨S1024x1024, .bf16⟩
  | .local _ .vmem, ⟨37, _⟩ => ⟨S1024x1024, .bf16⟩
  | .local _ .vmem, ⟨38, _⟩ => ⟨S1024x128, .f32⟩
  | .local _ .vmem, ⟨39, _⟩ => ⟨S1024x128, .f32⟩
  | .local _ .vmem, ⟨40, _⟩ => ⟨S128x128, .f32⟩
  | .local _ .vmem, ⟨41, _⟩ => ⟨S1x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x1024, .bf16⟩
  | .local _ .vmem, ⟨46, _⟩ => ⟨S1024x1024, .bf16⟩
  | .local _ .vmem, ⟨47, _⟩ => ⟨S1024x128, .f32⟩
  | .local _ .vmem, ⟨48, _⟩ => ⟨S1024x128, .f32⟩
  | .local _ .vmem, ⟨49, _⟩ => ⟨S128x128, .f32⟩
  | .local _ .vmem, ⟨50, _⟩ => ⟨S1x128, .f32⟩
  | .local _ .vmem, ⟨51, _⟩ => ⟨S1024x128, .f32⟩
  | .local _ .vmem, ⟨52, _⟩ => ⟨S1024x128, .f32⟩
  | .local _ .vmem, ⟨53, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg4_1 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem4_1 : DmaSem sig := 48

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_16 : BitVec 32 := 0#32
  let v46 : BitVec 1 := Scalar.cmpi .ne v45 c0_i32_16
  v46

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, false, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v48 : BitVec 1 := Scalar.cmpi .eq arg2 c3_i32
  let v49 : BitVec 32 := Scalar.extui v48
  let c0_i32_16 : BitVec 32 := 0#32
  let v50 : BitVec 1 := Scalar.cmpi .ne v49 c0_i32_16
  v50

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, false, true]

abbrev stage3_5 : Fin 2 → Memref sig .tc .vmem S1024x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1024x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![4, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1024x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

class Facts₀ : Prop where
  iota_S512x4096_d0_w32 : S512x4096.Iotas .tc 32 [0]
  iota_S512x4096_d1_w32 : S512x4096.Iotas .tc 32 [1]
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  reduces_S512x4096_S4096 : S512x4096.Reduces [0] S4096
  shapeCasts_S4096_S1x4096 : S4096.ShapeCasts S1x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  shapeCasts_S1x4096_S1x4096 : S1x4096.ShapeCasts S1x4096
  broadcasts_S1x4096_S8x4096 : S1x4096.Broadcasts S8x4096
  slices_S4096x128_S4096x1_0_0 : S4096x128.Slices ![0, 0] S4096x1
  shapeCasts_S4096x1_S4096 : S4096x1.ShapeCasts S4096
  slices_S8x4096_S1x4096_0_0 : S8x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  iota_S1024x1024_d0_w32 : S1024x1024.Iotas .tc 32 [0]
  iota_S1024x1024_d1_w32 : S1024x1024.Iotas .tc 32 [1]
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x1 : S1024x128.Slices ![0, 0] S1024x1
  broadcasts_S1024x1_S1024x1024 : S1024x1.Broadcasts S1024x1024
  transposes_S128x128_S128x128_1_0 : S128x128.Transposes [1, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S4096x128.size a
  hwx2_3 : ∀ i : grid2.Coords, EltTy.bits .f32 = 32 ∨ (Rect.block (s := S4096x128) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S4096x128.size a
  hwx2_4 : ∀ i : grid2.Coords, EltTy.bits .f32 = 32 ∨ (Rect.block (s := S4096x128) S1024x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S4096x4096.size a
  hwx2_5 : ∀ i : grid2.Coords, EltTy.bits .bf16 = 32 ∨ (Rect.block (s := S4096x4096) S1024x1024.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .bf16 = 32 ∨ (Rect.block (s := S4096x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .bf16 = 32 ∨ (Rect.block (s := S4096x4096) S1024x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S4096x128.size a
  hwx3_3 : ∀ i : grid3.Coords, EltTy.bits .f32 = 32 ∨ (Rect.block (s := S4096x128) S1024x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S4096x128.size a
  hwx3_4 : ∀ i : grid3.Coords, EltTy.bits .f32 = 32 ∨ (Rect.block (s := S4096x128) S1024x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S4096x4096.size a
  hwx3_5 : ∀ i : grid3.Coords, EltTy.bits .bf16 = 32 ∨ (Rect.block (s := S4096x4096) S1024x1024.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S4096x128.size a
  hwx4_1 : ∀ i : grid4.Coords, EltTy.bits .f32 = 32 ∨ (Rect.block (s := S4096x128) S1024x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x128.size a ≤ S4096x128.size a
  hwx4_4 : ∀ i : grid4.Coords, EltTy.bits .f32 = 32 ∨ (Rect.block (s := S4096x128) S1024x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .bf16 = 32 ∨ (Rect.block (s := S4096x4096) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S4096x128.size a
  hwx5_1 : ∀ i : grid5.Coords, EltTy.bits .f32 = 32 ∨ (Rect.block (s := S4096x128) S1024x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x128.size a ≤ S4096x128.size a
  hwx5_4 : ∀ i : grid5.Coords, EltTy.bits .f32 = 32 ∨ (Rect.block (s := S4096x128) S1024x128.size (cc5_transform_4 i) (hinb5_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1024x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v13) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1024x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1024x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v15) S1024x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v14) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20) S1024x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v15) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v19) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v21) S1024x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .i1⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x128, .f32⟩
  | .hbm, ⟨47, _⟩ => ⟨S128x128, .f32⟩
  | .hbm, ⟨48, _⟩ => ⟨S4096x128, .f32⟩
  | .hbm, ⟨49, _⟩ => ⟨S1x128, .f32⟩
  | .hbm, ⟨50, _⟩ => ⟨S4096x128, .f32⟩
  | .hbm, ⟨51, _⟩ => ⟨S4096x128, .f32⟩
  | .hbm, ⟨52, _⟩ => ⟨S_, .f32⟩
  | .hbm, ⟨53, _⟩ => ⟨S4096x128, .f32⟩
  | .hbm, ⟨54, _⟩ => ⟨S4096x128, .f32⟩
  | .hbm, ⟨55, _⟩ => ⟨S4096x4096, .f32⟩
  | .hbm, ⟨56, _⟩ => ⟨S4096x4096, .i32⟩
  | .hbm, ⟨57, _⟩ => ⟨S4096x4096, .i32⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S4096x4096, .i1⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .i1⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096x4096, .f32⟩
  | .hbm, ⟨87, _⟩ => ⟨S_, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S_, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S4096x128, .f32⟩
  | .hbm, ⟨97, _⟩ => ⟨S128x128, .f32⟩
  | .hbm, ⟨98, _⟩ => ⟨S4096x128, .f32⟩
  | .hbm, ⟨99, _⟩ => ⟨S1x128, .f32⟩
  | .hbm, ⟨100, _⟩ => ⟨S4096x128, .f32⟩
  | .hbm, ⟨101, _⟩ => ⟨S4096x128, .f32⟩
  | .hbm, ⟨102, _⟩ => ⟨S_, .f32⟩
  | .hbm, ⟨103, _⟩ => ⟨S4096x128, .f32⟩
  | .hbm, ⟨104, _⟩ => ⟨S4096x128, .f32⟩
  | .hbm, ⟨105, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_call2_v0 : Ref sig .tc := ⟨.hbm, 79, rfl⟩
abbrev main_call2_v1 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call3_cst : Ref sig .tc := ⟨.hbm, 102, rfl⟩
abbrev main_call3_v0 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  reducesTo_S4096x4096_S4096_d0 : S4096x4096.ReducesTo [0] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.LibStore.lean ====
import Idealize.ShloMosaic.Lib.Pipeline.Value
import Mathlib.Tactic.FinCases

namespace Cert.Hand

open Idealize.ShloMosaic

variable {F : FTy → Type} [FloatOps F]

-- A store through the whole block, made last, is what the buffer then reads, whatever was stored before.
theorem read_writes_unit {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

-- The zero offsets of a rank-2 block, as the constant function.
theorem off2_zero : (![0, 0] : Fin 2 → ℕ) = fun _ => 0 := funext fun a => by fin_cases a <;> rfl

end Cert.Hand
-- ==== Proof.K.R0.lean ====
import proofs.«106325_j17265768530288_1_alg».proof.Proof.Gen.Kernel.Launch
import proofs.«106325_j17265768530288_1_alg».proof.Proof.Gen.Kernel.Skeleton
import proofs.«106325_j17265768530288_1_alg».proof.Proof.Gen.Kernel.Points
import proofs.«106325_j17265768530288_1_alg».proof.Proof.LibStore
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ab0 (c : Dev nD) (t : Fin cfg0.N) : Vec F S512x4096 .f32 := iblk0 V c 0 t

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

abbrev case0 (i : grid0.Coords) : Prop := cond0_0 i ∧ ¬cond0_1 i ∨ ¬cond0_0 i ∧ ¬cond0_1 i ∨ ¬cond0_0 i ∧ cond0_1 i

section Run
variable (c : Dev nD) (E : Set ℕ) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (x0 : Vec F S512x4096 .f32)

-- The body in its three control cases: the sums go onto zero at the first point and onto `xs` after it; the last point also stores them.
theorem run0 (h : case0 i) (xo xs : Vec F S8x4096 .f32)
    (K : PUnit → sProp 𝕄) :
    iprop(owns (c : Thread nD τ) arg1 fullShare x0 ∗ (∃ d, owns (c : Thread nD τ) arg2 fullShare d)
        ∗ owns (c : Thread nD τ) arg3 fullShare xo ∗ owns (c : Thread nD τ) arg4 fullShare xs
        ∗ (iprop(owns (c : Thread nD τ) arg1 fullShare x0 ∗ owns (c : Thread nD τ) arg2 fullShare (k0_pay2 i x0)
            ∗ owns (c : Thread nD τ) arg3 fullShare (if cond0_1 i then k0_pay4 i x0 (if cond0_0 i then k0_pay3 else xs) else xo)
            ∗ owns (c : Thread nD τ) arg4 fullShare (k0_pay4 i x0 (if cond0_0 i then k0_pay3 else xs))) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel owns
  iintro ⟨⟨%f0, %hf0, H0⟩, ⟨%d1, %f1, -, H1⟩, ⟨%f2, %hf2, H2⟩, ⟨%fs, %hfs, HS⟩, Hk⟩
  subst hf0 hf2 hfs
  rcases h with ⟨hc0, hc1⟩ | ⟨hc0, hc1⟩ | ⟨hc0, hc1⟩ <;>
  · first | rw [if_pos hc0] | rw [if_neg hc0]
    first | rw [if_pos hc1] | rw [if_neg hc1]
    sl_exec (disch := first | exact hc0 | exact hc1)
    sl_step
    iapply Hk
    isplitl [H0]; rotate_left; isplitl [H1]; rotate_left; isplitl [H2]; rotate_left
    all_goals
      iexists _; iframe; ipureintro
      try sl_unfold_words
      try rw [Cert.Hand.read_writes_unit _ _ Cert.Hand.off2_zero]
      simp only [View.readAt_eq_ld, View.ld_unit_zero (S := S8x4096) Cert.Hand.off2_zero, View.ld_unit_zero (S := S512x4096) Cert.Hand.off2_zero,
        View.readCov_unit_zero (S := S8x4096) _ Cert.Hand.off2_zero]

end Run

theorem hcond0_0 : ∀ t : Fin cfg0.N, cond0_0 (grid0.coords t) ↔ t.val = 0 :=
  (by decide +kernel : ∀ t : Fin grid0.N, cond0_0 (grid0.coords t) ↔ t.val = 0)

theorem hcase0 : ∀ t : Fin cfg0.N, case0 (grid0.coords t) := (by decide +kernel : ∀ t : Fin grid0.N, _)

theorem idle0_2 : ∀ t : Fin cfg0.N, (cond0_1 (grid0.coords t) → cfg0.idle 2 (grid0.coords t) = false)
    ∧ (¬cond0_1 (grid0.coords t) → cfg0.idle 2 (grid0.coords t) = true ∧ (cfg0.win 2).flush t = false) := by decide +kernel

abbrev scM0 : Memref sig .tc .vmem S8x4096 .f32 := Memref.whole cc0_scratch0

def acc0 (c : Dev nD) : (n : ℕ) → n < cfg0.N → Vec F S8x4096 .f32
  | 0, hn => k0_pay4 (grid0.coords ⟨0, hn⟩) (ab0 V c ⟨0, hn⟩) (k0_pay3 (F := F))
  | n + 1, hn => k0_pay4 (grid0.coords ⟨n + 1, hn⟩) (ab0 V c ⟨n + 1, hn⟩) (acc0 c n (Nat.lt_of_succ_lt hn))

-- One step of the accumulator, from whatever the point before left (from zero at the first point).
theorem acc0_eq (c : Dev nD) (t : Fin cfg0.N) (x : Vec F S8x4096 .f32) (hx : ∀ h : t.val ≠ 0, x = acc0 V c (t.val - 1) (by omega)) :
    k0_pay4 (grid0.coords t) (iblk0 V c 0 t) (if cond0_0 (grid0.coords t) then k0_pay3 else x) = acc0 V c t.val t.isLt := by
  obtain ⟨_ | n, hn⟩ := t
  · rw [if_pos ((hcond0_0 ⟨0, hn⟩).mpr rfl)]; rfl
  · rw [if_neg fun h => Nat.succ_ne_zero n ((hcond0_0 ⟨n + 1, hn⟩).mp h), hx (Nat.succ_ne_zero n)]; rfl

def Phi0 (c : Dev nD) (n : ℕ) (hn : n ≤ cfg0.N) : sProp 𝕄 :=
  iprop((∃ x, ⌜∀ h : n ≠ 0, x = acc0 V c (n - 1) (by omega)⌝ ∗ owns (c : Thread nD τ) scM0 fullShare x)
    ∗ Pipeline.scopedRestBut (Ix := Unit) (Name := ℕ) (U := UR sig nD τ) (Lvl := ℕ) (Val := Elt F) spec0 c [cc0_scratch0]
    ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (grid0.coords t) (ab0 V c t)
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = k0_pay2 (grid0.coords t) (ab0 V c t) := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  (dat0 V c).before_fetched 0 t (fetch0_0 t) d

-- What the body leaves in the third window, by cases on the last point's condition.
theorem leaves0_2 (c : Dev nD) (t : Fin cfg0.N) (d) :
    owns (c : Thread nD τ) (st0_2 t) fullShare (if cond0_1 (grid0.coords t) then acc0 V c t.val t.isLt else (dat0 V c).before 2 t d)
      ⊢ (dat0 V c).leavesExact 2 t := by
  by_cases h : cond0_1 (grid0.coords t)
  · rw [if_pos h]; unfold Dat.leavesExact; rw [(idle0_2 t).1 h, after0_2]
  · rw [if_neg h, Dat.leavesExact_idle _ 2 t ((idle0_2 t).2 h).1 ((idle0_2 t).2 h).2]; iintro H; iexists d; iexact H

theorem body_obligation0 (c : Dev nD) : BodyObligation (dat0 (F := F) V c) (defs₀ (F := F)) Variants.none () Set.univ := fun t => by
  rw [bigSep_W0, bigSep_W0]
  change iprop(Phi0 V c t.val (Nat.le_of_lt t.isLt) ∗ _) ⊢ wp _ _ _ (bodyAt0 t) fun _ =>
    iprop(Phi0 V c (t.val + 1) t.isLt ∗ (dat0 V c).owesAt () t.castSucc ∗ owns (c : Thread nD τ) (st0_0 t) fullShare (iblk0 V c 0 t)
      ∗ owns (c : Thread nD τ) (st0_1 t) fullShare (k0_pay2 (grid0.coords t) (iblk0 V c 0 t)) ∗ (dat0 V c).leavesExact 2 t)
  simp only [before0_0]
  unfold Phi0
  iintro ⟨⟨⟨%x, %hx, HS⟩, HR, Hg⟩, Ho, ⟨%d0, H0⟩, ⟨%d1, H1⟩, ⟨%d2, H2⟩⟩
  iapply (run0 c Set.univ (grid0.coords t) _ _ _ _ _ _ _ _ (iblk0 V c 0 t) (hcase0 t) ((dat0 V c).before 2 t d2) x _)
  iframe H0 H2 HS
  isplitl [H1]; · iexists _; iexact H1
  iintro ⟨H0, H1, H2, HS⟩
  rw [acc0_eq V c t x hx]
  iframe HR Hg Ho H0 H1
  isplitl [HS]
  · iexists _; iframe HS; ipureintro; intro _; rfl
  iapply (leaves0_2 V c t d2); iexact H2

theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [scopedRest0_split]; simp only [dat0, Phi0, scM0, owns_whole]
  iintro ⟨Hg, ⟨%f, HS⟩, HR⟩
  iframe HR Hg; iexists f; iframe HS; ipureintro; intro h; exact absurd rfl h

theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [scopedRest0_split]; simp only [dat0, Phi0, scM0, owns_whole]
  iintro ⟨⟨%x, -, HS⟩, HR, Hg⟩
  iframe Hg HR; iexists x; iexact HS

end Cert.Kernel.Gen

end
-- ==== Proof.K.R1.lean ====
import proofs.«106325_j17265768530288_1_alg».proof.Proof.Gen.Kernel.Launch
import proofs.«106325_j17265768530288_1_alg».proof.Proof.Gen.Kernel.Skeleton
import proofs.«106325_j17265768530288_1_alg».proof.Proof.Gen.Kernel.Points
import Idealize.ShloMosaic.Lib.Pipeline.FrameBody
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x1024 := Rect.unit (s := S1024x1024) ![0, 0] S1024x1024.size inb_S1024x1024_S1024x1024_0_0

def out1_1 (x0 : Vec F S1024x1024 .f32) : Vec F S1024x1024 .bf16 :=
  View.canon [⟨r1_0, k1_pay1 (View.ld x0 r1_0)⟩]

theorem sound_kernel1 (c : Dev nD) (E : Set ℕ) (i : grid1.Coords) (arg2 : Memref sig .tc .vmem S1024x1024 .f32) (harg2 : arg2.IsWhole) (arg3 : Memref sig .tc .vmem S1024x1024 .bf16) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__transpose_kernel i arg2 harg2 arg3 harg3) K := by
  simp only [cc1__transpose_kernel_eq_skeleton]; unfold cc1__transpose_kernel_skel owns
  iintro ⟨⟨%f0, %hf0, H0⟩, ⟨%d1, %f1, -, H1⟩, Hk⟩
  subst hf0
  sl_exec
  sl_step
  iapply Hk
  isplitl [H0]
  · iexists f0; iframe H0; ipureintro; rfl
  iexists _; iframe H1; ipureintro
  exact View.read_writes_eq_canon _ _ _ fun y => View.cover_of_tiled [⟨_, _⟩] S1024x1024.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  (dat1 V c).before_fetched 0 t (fetch1_0 t) d

theorem body_obligation1 (c : Dev nD) : BodyObligation (dat1 (F := F) V c) (defs₀ (F := F)) Variants.none () Set.univ := fun t => by
  rw [bigSep_W1, bigSep_W1]
  simp only [before1_0]
  simp only [dat1]
  change _ ⊢ wp _ _ _ (bodyAt1 t) _
  iintro ⟨HΦ, Ho, ⟨%d0, H0⟩, ⟨%d1, H1⟩⟩
  iapply (sound_kernel1 c Set.univ (grid1.coords t) _ _ _ _ (iblk1 V c 0 t) _)
  iframe H0
  isplitl [H1]; · iexists _; iexact H1
  iintro ⟨H0, H1⟩
  iframe HΦ H0 H1
  iexact Ho

theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 :=
  sep_comm.1

theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) :=
  sep_comm.1

end Cert.Kernel.Gen

end
-- ==== Proof.K.R2.lean ====
import proofs.«106325_j17265768530288_1_alg».proof.Proof.Gen.Kernel.Launch
import proofs.«106325_j17265768530288_1_alg».proof.Proof.Gen.Kernel.Skeleton
import proofs.«106325_j17265768530288_1_alg».proof.Proof.Gen.Kernel.Points
import proofs.«106325_j17265768530288_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev lb2 (c : Dev nD) (t : Fin cfg2.N) : Vec F S1024x1024 .f32 := iblk2 V c 0 t
abbrev rb2 (c : Dev nD) (t : Fin cfg2.N) : Vec F S1024x1024 .f32 := iblk2 V c 1 t
abbrev db2 (c : Dev nD) (t : Fin cfg2.N) : Vec F S1024x1024 .f32 := iblk2 V c 2 t
abbrev di2 (c : Dev nD) (t : Fin cfg2.N) : Vec F S1024x128 .f32 := iblk2 V c 3 t
abbrev dk2 (c : Dev nD) (t : Fin cfg2.N) : Vec F S1024x128 .f32 := iblk2 V c 4 t

abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1
theorem hcond2_0 : ∀ t : Fin cfg2.N, cond2_0 (grid2.coords t) ↔ t.val % 4 = 0 := by decide +kernel
theorem excl2 : ∀ t : Fin cfg2.N, cond2_0 (grid2.coords t) → ¬cond2_1 (grid2.coords t) := by decide +kernel

theorem liveAt2 : ∀ (w : Fin cfg2.W) (t : Fin cfg2.N), w ≠ 5 → cfg2.idle w (grid2.coords t) = false := by decide +kernel
theorem idle2_5 : ∀ t : Fin cfg2.N, if cond2_1 (grid2.coords t) then cfg2.idle 5 (grid2.coords t) = false else cfg2.idle 5 (grid2.coords t) = true ∧ (cfg2.win 5).flush t = false := by
  decide +kernel

section Runs
variable (c : Dev nD) (E : Set ℕ) (i : grid2.Coords)
    (arg3 arg4 arg5 : Memref sig .tc .vmem S1024x1024 .f32) (arg6 arg7 : Memref sig .tc .vmem S1024x128 .f32) (arg8 : Memref sig .tc .vmem S1024x1024 .bf16)
    (arg9 : Memref sig .tc .vmem S1024x1024 .f32) (harg3 : arg3.IsWhole) (harg4 : arg4.IsWhole) (harg5 : arg5.IsWhole) (harg6 : arg6.IsWhole) (harg7 : arg7.IsWhole)
    (harg8 : arg8.IsWhole) (harg9 : arg9.IsWhole) (x0 x1 x2 : Vec F S1024x1024 .f32) (x3 x4 : Vec F S1024x128 .f32)

set_option maxHeartbeats 1000000 in
-- One point of the body: the accumulator (zero first when k = 0) gains the product; at k = 3 the output takes the blend.
theorem run2 (xo : Vec F S1024x1024 .bf16) (xs a : Vec F S1024x1024 .f32)
    (ha : a = k2_pay1 (k2_pay5 i x0 x3) (k2_pay6 i x1 x4) (if cond2_0 i then k2_pay3 (F := F) else xs)) (hx : cond2_0 i → ¬cond2_1 i) (K : PUnit → sProp 𝕄) :
    iprop((iprop(ownsTc c arg8 fullShare (if cond2_1 i then k2_pay2 (Scalar.muli (BitVec.ofNat 32 (i 0).val) 1024#32) (Scalar.muli (BitVec.ofNat 32 (i 1).val) 1024#32) (k2_pay4 x3) x2 a else xo)
            ∗ ownsTc c arg9 fullShare a ∗ ownsTc c arg3 fullShare x0 ∗ ownsTc c arg4 fullShare x1 ∗ ownsTc c arg5 fullShare x2
            ∗ ownsTc c arg6 fullShare x3 ∗ ownsTc c arg7 fullShare x4) -∗ K ⟨⟩)
        ∗ ownsTc c arg8 fullShare xo ∗ ownsTc c arg9 fullShare xs ∗ ownsTc c arg3 fullShare x0 ∗ ownsTc c arg4 fullShare x1
        ∗ ownsTc c arg5 fullShare x2 ∗ ownsTc c arg6 fullShare x3 ∗ ownsTc c arg7 fullShare x4)
      ⊢ wp frame (wpE (defs₀ (F := F)) Variants.none c none) E (cc2__diffuse_kernel i arg3 harg3 arg4 harg4 arg5 harg5 arg6 harg6 arg7 harg7 arg8 harg8 arg9 harg9) K := by
  subst ha
  rcases Classical.propComplete (cond2_0 i) with e0 | e0 <;> rcases Classical.propComplete (cond2_1 i) with e1 | e1 <;>
  first
  | exact absurd (of_eq_true e1) (hx (of_eq_true e0))
  | simp only [e0, e1, if_true, if_false]
    simp only [cc2__diffuse_kernel_eq_skeleton]; unfold cc2__diffuse_kernel_skel
    simp only [k2_part1_eq_skeleton]; unfold k2_part1_skel
    unfold ownsTc owns
    iintro ⟨Hk, ⟨%f5, %hf5, H5⟩, ⟨%fs, %hfs, HS⟩, ⟨%f0, %hf0, H0⟩, ⟨%f1, %hf1, H1⟩, ⟨%f2, %hf2, H2⟩, ⟨%f3, %hf3, H3⟩, ⟨%f4, %hf4, H4⟩⟩
    subst_vars
    sl_exec (disch := first | exact of_eq_true e0 | exact of_eq_false e0 | exact of_eq_true e1 | exact of_eq_false e1)
    sl_step
    iapply Hk
    isplitl [H5]; rotate_left; isplitl [HS]; rotate_left; sl_close
    all_goals
      iexists _; iframe; ipureintro; sl_unfold_words
      simp only [read_writes_unit (S := S1024x1024) _ _ off2_zero, View.readAt_eq_ld, View.ld_unit_zero (S := S1024x1024) off2_zero, View.ld_unit_zero (S := S1024x128) off2_zero,
        View.readCov_unit_zero (S := S1024x1024) _ off2_zero]

end Runs

def acc2 (c : Dev nD) : (n : ℕ) → n < cfg2.N → Vec F S1024x1024 .f32
  | 0, hn => k2_pay1 (k2_pay5 (grid2.coords ⟨0, hn⟩) (lb2 V c ⟨0, hn⟩) (di2 V c ⟨0, hn⟩)) (k2_pay6 (grid2.coords ⟨0, hn⟩) (rb2 V c ⟨0, hn⟩) (dk2 V c ⟨0, hn⟩)) (k2_pay3 (F := F))
  | n + 1, hn =>
    k2_pay1 (k2_pay5 (grid2.coords ⟨n + 1, hn⟩) (lb2 V c ⟨n + 1, hn⟩) (di2 V c ⟨n + 1, hn⟩)) (k2_pay6 (grid2.coords ⟨n + 1, hn⟩) (rb2 V c ⟨n + 1, hn⟩) (dk2 V c ⟨n + 1, hn⟩))
      (if (n + 1) % 4 = 0 then k2_pay3 (F := F) else acc2 c n (Nat.lt_of_succ_lt hn))

theorem acc2_first (c : Dev nD) (t : Fin cfg2.N) (h0 : t.val % 4 = 0) :
    acc2 V c t.val t.isLt = k2_pay1 (k2_pay5 (grid2.coords t) (lb2 V c t) (di2 V c t)) (k2_pay6 (grid2.coords t) (rb2 V c t) (dk2 V c t)) (k2_pay3 (F := F)) := by
  obtain ⟨n, hn⟩ := t
  cases n with
  | zero => rfl
  | succ n => exact congrArg (k2_pay1 _ _) (if_pos h0)

theorem acc2_next (c : Dev nD) (t : Fin cfg2.N) (h0 : ¬t.val % 4 = 0) :
    acc2 V c t.val t.isLt = k2_pay1 (k2_pay5 (grid2.coords t) (lb2 V c t) (di2 V c t)) (k2_pay6 (grid2.coords t) (rb2 V c t) (dk2 V c t))
      (acc2 V c (t.val - 1) (Nat.lt_of_le_of_lt (Nat.sub_le _ _) t.isLt)) := by
  obtain ⟨n, hn⟩ := t
  cases n with
  | zero => exact absurd (Nat.zero_mod _) h0
  | succ n => exact congrArg (k2_pay1 _ _) (if_neg h0)

-- One step of the recursion for the accumulator, both cases at once.
theorem acc2_step (c : Dev nD) (t : Fin cfg2.N) (xs : Vec F S1024x1024 .f32) (hxs : ∀ h : t.val ≠ 0, xs = acc2 V c (t.val - 1) (Nat.lt_of_le_of_lt (Nat.sub_le _ _) t.isLt)) :
    acc2 V c t.val t.isLt = k2_pay1 (k2_pay5 (grid2.coords t) (lb2 V c t) (di2 V c t)) (k2_pay6 (grid2.coords t) (rb2 V c t) (dk2 V c t))
      (if cond2_0 (grid2.coords t) then k2_pay3 (F := F) else xs) := by
  by_cases h0 : t.val % 4 = 0
  · rw [if_pos ((hcond2_0 t).mpr h0), acc2_first V c t h0]
  · rw [if_neg (mt (hcond2_0 t).mp h0), acc2_next V c t h0, hxs fun e => h0 (by rw [e])]

def Phi2 (c : Dev nD) (n : ℕ) (hn : n ≤ cfg2.N) : sProp 𝕄 :=
  iprop((∃ x, ⌜∀ h : n ≠ 0, x = acc2 V c (n - 1) (by omega)⌝ ∗ ownsTc c (Memref.whole cc2_scratch0) fullShare x)
    ∗ Pipeline.scopedRestBut (Ix := Unit) (Name := ℕ) (U := UR sig nD τ) (Lvl := ℕ) (Val := Elt F) spec2 c [cc2_scratch0]
    ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (Scalar.muli (BitVec.ofNat 32 ((grid2.coords t) 0).val) 1024#32) (Scalar.muli (BitVec.ofNat 32 ((grid2.coords t) 1).val) 1024#32)
        (k2_pay4 (di2 V c t)) (db2 V c t) (acc2 V c t.val t.isLt)
  Φ t := Phi2 V c t.val (Nat.le_of_lt_succ t.isLt)
  q := fun
    | 0 => fullShare.left
    | 1 => fullShare.right.left
    | 2 => fullShare.right.right
    | 3 => fullShare.left
    | 4 => fullShare.right
    | 5 => fullShare
    | ⟨_ + 6, h⟩ => absurd h (Nat.not_lt.2 (Nat.le_add_left _ _))
  owed _ := 0

theorem A_eq2 (c : Dev nD) (w : Fin cfg2.W) : (dat2 V c).A w = V c (Pipeline.arrRef spec2 w) := rfl

theorem after2_5 (c : Dev nD) (t : Fin cfg2.N) : (dat2 V c).after 5 t =
    k2_pay2 (Scalar.muli (BitVec.ofNat 32 ((grid2.coords t) 0).val) 1024#32) (Scalar.muli (BitVec.ofNat 32 ((grid2.coords t) 1).val) 1024#32)
      (k2_pay4 (di2 V c t)) (db2 V c t) (acc2 V c t.val t.isLt) := by dsimp only [dat2]

-- No input is written: what is found of it is what is left of it.
theorem before2 (c : Dev nD) : ∀ w : Fin cfg2.W, w ≠ 5 → ∀ t d, (dat2 V c).before w t d = (dat2 V c).after w t
  | ⟨0, _⟩, _ | ⟨1, _⟩, _ | ⟨2, _⟩, _ | ⟨3, _⟩, _ | ⟨4, _⟩, _ => fun t d =>
    (dat2 V c).before_in_eq_fetched _ rfl (fun _ => rfl) (fun _ _ _ => rfl) (fun _ => rfl) t d
  | ⟨5, _⟩, h => absurd rfl h

theorem leaves2 (c : Dev nD) (w : Fin cfg2.W) (hw : w ≠ 5) (t : Fin cfg2.N) :
    (dat2 V c).leavesExact w t = ownsTc c ((cfg2.win w).stage (cfg2.slots t w)) fullShare ((dat2 V c).after w t) := by
  unfold Dat.leavesExact; rw [liveAt2 w t hw]

-- The output window leaves the blend at k = 3 and what it found at every other point.
theorem leaves2_5 (c : Dev nD) (t : Fin cfg2.N) (d) :
    ownsTc c (st2_5 t) fullShare (if cond2_1 (grid2.coords t) then (dat2 V c).after 5 t else (dat2 V c).before 5 t d) ⊢ (dat2 V c).leavesExact 5 t := by
  have hi := idle2_5 t
  by_cases h : cond2_1 (grid2.coords t)
  · rw [if_pos h] at hi ⊢; unfold Dat.leavesExact; rw [hi]
  · rw [if_neg h] at hi ⊢; rw [Dat.leavesExact_idle _ 5 t hi.1 hi.2]; iintro H; iexists d; iexact H

theorem sound_body2 (c : Dev nD) (t : Fin cfg2.N) :
    iprop(Phi2 V c t.val (Nat.le_of_lt t.isLt) ∗ (dat2 V c).owesAt () t.castSucc
        ∗ bigSep Finset.univ fun w => iprop(∃ d, ownsTc c ((cfg2.win w).stage (cfg2.slots t w)) fullShare ((dat2 V c).before w t d)))
      ⊢ wp frame (wpE (defs₀ (F := F)) Variants.none c none) Set.univ (bodyAt2 t) fun _ =>
        iprop(Phi2 V c (t.val + 1) t.isLt ∗ (dat2 V c).owesAt () t.castSucc ∗ bigSep Finset.univ fun w => (dat2 V c).leavesExact w t) := by
  rw [bigSep_W2, bigSep_W2]
  simp (disch := decide) only [before2 V c, leaves2 V c]
  unfold Phi2
  iintro ⟨⟨⟨%xs, %hxs, HS⟩, HR, Hg⟩, Ho, ⟨%d0, H0⟩, ⟨%d1, H1⟩, ⟨%d2, H2⟩, ⟨%d3, H3⟩, ⟨%d4, H4⟩, ⟨%d5, H5⟩⟩
  iapply (run2 c Set.univ (grid2.coords t) _ _ _ _ _ _ _ _ _ _ _ _ _ _ _ _ _ _ _ ((dat2 V c).before 5 t d5) _ _ (acc2_step V c t xs hxs) (excl2 t) _)
  isplitl [HR Hg Ho]; swap; · sl_close
  iintro ⟨H5, HS, H0, H1, H2, H3, H4⟩
  ihave H5 := (leaves2_5 V c t d5) $$ [H5]
  · iexact H5
  iframe HR Hg Ho
  isplitl [HS]
  · iexists _; iframe; ipureintro; exact fun _ => rfl
  sl_close

theorem body_obligation2 (c : Dev nD) : BodyObligation (dat2 (F := F) V c) (defs₀ (F := F)) Variants.none () Set.univ := sound_body2 V c

theorem hin2 (c : Dev nD) :
    iprop((∃ r, prngReg c r) ∗ Pipeline.scopedRest (Ix := Unit) (Name := ℕ) (U := UR sig nD τ) (Lvl := ℕ) (Val := Elt F) spec2 c) ⊢ (dat2 V c).Φ 0 := by
  change _ ⊢ Phi2 V c 0 (Nat.zero_le _)
  rw [scopedRest2_split]; unfold Phi2
  simp only [ownsTc, owns_whole]
  iintro ⟨Hg, ⟨%f, HS⟩, HR⟩
  iframe Hg HR
  iexists f; isplitr; · ipureintro; exact fun h => absurd rfl h
  iexact HS

theorem hout2 (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) := by
  change Phi2 V c cfg2.N (Nat.le_refl _) ⊢ _
  rw [scopedRest2_split]; unfold Phi2
  simp only [ownsTc, owns_whole]
  iintro ⟨⟨%x, -, HS⟩, HR, Hg⟩
  iframe Hg HR
  iexists x; iexact HS

end Cert.Kernel.Gen

end
-- ==== Proof.K.R3.lean ====
import proofs.«106325_j17265768530288_1_alg».proof.Proof.Gen.Kernel.Launch
import proofs.«106325_j17265768530288_1_alg».proof.Proof.Gen.Kernel.Skeleton
import proofs.«106325_j17265768530288_1_alg».proof.Proof.Gen.Kernel.Points
import proofs.«106325_j17265768530288_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev lb3 (c : Dev nD) (t : Fin cfg3.N) : Vec F S1024x1024 .bf16 := iblk3 V c 0 t
abbrev rb3 (c : Dev nD) (t : Fin cfg3.N) : Vec F S1024x1024 .bf16 := iblk3 V c 1 t
abbrev db3 (c : Dev nD) (t : Fin cfg3.N) : Vec F S1024x1024 .bf16 := iblk3 V c 2 t
abbrev di3 (c : Dev nD) (t : Fin cfg3.N) : Vec F S1024x128 .f32 := iblk3 V c 3 t
abbrev dk3 (c : Dev nD) (t : Fin cfg3.N) : Vec F S1024x128 .f32 := iblk3 V c 4 t

abbrev cond3_0 (i : grid3.Coords) : Prop := (Scalar.cmpi .ne (Scalar.extui (Scalar.cmpi .eq (BitVec.ofNat 32 (i 2).val) 0#32)) 0#32) = 1#1
abbrev cond3_1 (i : grid3.Coords) : Prop := k3_cond2 i = 1#1
theorem hcond3_0 : ∀ t : Fin cfg3.N, cond3_0 (grid3.coords t) ↔ t.val % 4 = 0 := by decide +kernel
theorem excl3 : ∀ t : Fin cfg3.N, cond3_0 (grid3.coords t) → ¬cond3_1 (grid3.coords t) := by decide +kernel

theorem liveAt3 : ∀ (w : Fin cfg3.W) (t : Fin cfg3.N), w ≠ 5 → cfg3.idle w (grid3.coords t) = false := by decide +kernel
theorem idle3_5 : ∀ t : Fin cfg3.N, if cond3_1 (grid3.coords t) then cfg3.idle 5 (grid3.coords t) = false else cfg3.idle 5 (grid3.coords t) = true ∧ (cfg3.win 5).flush t = false := by
  decide +kernel

section Runs
variable (c : Dev nD) (E : Set ℕ) (i : grid3.Coords)
    (arg3 arg4 arg5 : Memref sig .tc .vmem S1024x1024 .bf16) (arg6 arg7 : Memref sig .tc .vmem S1024x128 .f32) (arg8 : Memref sig .tc .vmem S1024x1024 .bf16)
    (arg9 : Memref sig .tc .vmem S1024x1024 .f32) (harg3 : arg3.IsWhole) (harg4 : arg4.IsWhole) (harg5 : arg5.IsWhole) (harg6 : arg6.IsWhole) (harg7 : arg7.IsWhole)
    (harg8 : arg8.IsWhole) (harg9 : arg9.IsWhole) (x0 x1 x2 : Vec F S1024x1024 .bf16) (x3 x4 : Vec F S1024x128 .f32)

set_option maxHeartbeats 1000000 in
-- One point of the body: the accumulator (zero first when k = 0) gains the product; at k = 3 the output takes the blend.
theorem run3 (xo : Vec F S1024x1024 .bf16) (xs a : Vec F S1024x1024 .f32)
    (ha : a = k3_pay1 (k3_pay5 i x0 x3) (k3_pay6 i x1 x4) (if cond3_0 i then k3_pay3 (F := F) else xs)) (hx : cond3_0 i → ¬cond3_1 i) (K : PUnit → sProp 𝕄) :
    iprop((iprop(ownsTc c arg8 fullShare (if cond3_1 i then k3_pay2 (Scalar.muli (BitVec.ofNat 32 (i 0).val) 1024#32) (Scalar.muli (BitVec.ofNat 32 (i 1).val) 1024#32) (k3_pay4 x3) x2 a else xo)
            ∗ ownsTc c arg9 fullShare a ∗ ownsTc c arg3 fullShare x0 ∗ ownsTc c arg4 fullShare x1 ∗ ownsTc c arg5 fullShare x2
            ∗ ownsTc c arg6 fullShare x3 ∗ ownsTc c arg7 fullShare x4) -∗ K ⟨⟩)
        ∗ ownsTc c arg8 fullShare xo ∗ ownsTc c arg9 fullShare xs ∗ ownsTc c arg3 fullShare x0 ∗ ownsTc c arg4 fullShare x1
        ∗ ownsTc c arg5 fullShare x2 ∗ ownsTc c arg6 fullShare x3 ∗ ownsTc c arg7 fullShare x4)
      ⊢ wp frame (wpE (defs₀ (F := F)) Variants.none c none) E (cc3__diffuse_kernel i arg3 harg3 arg4 harg4 arg5 harg5 arg6 harg6 arg7 harg7 arg8 harg8 arg9 harg9) K := by
  subst ha
  rcases Classical.propComplete (cond3_0 i) with e0 | e0 <;> rcases Classical.propComplete (cond3_1 i) with e1 | e1 <;>
  first
  | exact absurd (of_eq_true e1) (hx (of_eq_true e0))
  | simp only [e0, e1, if_true, if_false]
    simp only [cc3__diffuse_kernel_eq_skeleton]; unfold cc3__diffuse_kernel_skel
    simp only [k3_part1_eq_skeleton]; unfold k3_part1_skel
    unfold ownsTc owns
    iintro ⟨Hk, ⟨%f5, %hf5, H5⟩, ⟨%fs, %hfs, HS⟩, ⟨%f0, %hf0, H0⟩, ⟨%f1, %hf1, H1⟩, ⟨%f2, %hf2, H2⟩, ⟨%f3, %hf3, H3⟩, ⟨%f4, %hf4, H4⟩⟩
    subst_vars
    sl_exec (disch := first | exact of_eq_true e0 | exact of_eq_false e0 | exact of_eq_true e1 | exact of_eq_false e1)
    sl_step
    iapply Hk
    isplitl [H5]; rotate_left; isplitl [HS]; rotate_left; sl_close
    all_goals
      iexists _; iframe; ipureintro; sl_unfold_words
      simp only [read_writes_unit (S := S1024x1024) _ _ off2_zero, View.readAt_eq_ld, View.ld_unit_zero (S := S1024x1024) off2_zero, View.ld_unit_zero (S := S1024x128) off2_zero,
        View.readCov_unit_zero (S := S1024x1024) _ off2_zero]

end Runs

def acc3 (c : Dev nD) : (n : ℕ) → n < cfg3.N → Vec F S1024x1024 .f32
  | 0, hn => k3_pay1 (k3_pay5 (grid3.coords ⟨0, hn⟩) (lb3 V c ⟨0, hn⟩) (di3 V c ⟨0, hn⟩)) (k3_pay6 (grid3.coords ⟨0, hn⟩) (rb3 V c ⟨0, hn⟩) (dk3 V c ⟨0, hn⟩)) (k3_pay3 (F := F))
  | n + 1, hn =>
    k3_pay1 (k3_pay5 (grid3.coords ⟨n + 1, hn⟩) (lb3 V c ⟨n + 1, hn⟩) (di3 V c ⟨n + 1, hn⟩)) (k3_pay6 (grid3.coords ⟨n + 1, hn⟩) (rb3 V c ⟨n + 1, hn⟩) (dk3 V c ⟨n + 1, hn⟩))
      (if (n + 1) % 4 = 0 then k3_pay3 (F := F) else acc3 c n (Nat.lt_of_succ_lt hn))

theorem acc3_first (c : Dev nD) (t : Fin cfg3.N) (h0 : t.val % 4 = 0) :
    acc3 V c t.val t.isLt = k3_pay1 (k3_pay5 (grid3.coords t) (lb3 V c t) (di3 V c t)) (k3_pay6 (grid3.coords t) (rb3 V c t) (dk3 V c t)) (k3_pay3 (F := F)) := by
  obtain ⟨n, hn⟩ := t
  cases n with
  | zero => rfl
  | succ n => exact congrArg (k3_pay1 _ _) (if_pos h0)

theorem acc3_next (c : Dev nD) (t : Fin cfg3.N) (h0 : ¬t.val % 4 = 0) :
    acc3 V c t.val t.isLt = k3_pay1 (k3_pay5 (grid3.coords t) (lb3 V c t) (di3 V c t)) (k3_pay6 (grid3.coords t) (rb3 V c t) (dk3 V c t))
      (acc3 V c (t.val - 1) (Nat.lt_of_le_of_lt (Nat.sub_le _ _) t.isLt)) := by
  obtain ⟨n, hn⟩ := t
  cases n with
  | zero => exact absurd (Nat.zero_mod _) h0
  | succ n => exact congrArg (k3_pay1 _ _) (if_neg h0)

-- One step of the recursion for the accumulator, both cases at once.
theorem acc3_step (c : Dev nD) (t : Fin cfg3.N) (xs : Vec F S1024x1024 .f32) (hxs : ∀ h : t.val ≠ 0, xs = acc3 V c (t.val - 1) (Nat.lt_of_le_of_lt (Nat.sub_le _ _) t.isLt)) :
    acc3 V c t.val t.isLt = k3_pay1 (k3_pay5 (grid3.coords t) (lb3 V c t) (di3 V c t)) (k3_pay6 (grid3.coords t) (rb3 V c t) (dk3 V c t))
      (if cond3_0 (grid3.coords t) then k3_pay3 (F := F) else xs) := by
  by_cases h0 : t.val % 4 = 0
  · rw [if_pos ((hcond3_0 t).mpr h0), acc3_first V c t h0]
  · rw [if_neg (mt (hcond3_0 t).mp h0), acc3_next V c t h0, hxs fun e => h0 (by rw [e])]

def Phi3 (c : Dev nD) (n : ℕ) (hn : n ≤ cfg3.N) : sProp 𝕄 :=
  iprop((∃ x, ⌜∀ h : n ≠ 0, x = acc3 V c (n - 1) (by omega)⌝ ∗ ownsTc c (Memref.whole cc3_scratch0) fullShare x)
    ∗ Pipeline.scopedRestBut (Ix := Unit) (Name := ℕ) (U := UR sig nD τ) (Lvl := ℕ) (Val := Elt F) spec3 c [cc3_scratch0]
    ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay2 (Scalar.muli (BitVec.ofNat 32 ((grid3.coords t) 0).val) 1024#32) (Scalar.muli (BitVec.ofNat 32 ((grid3.coords t) 1).val) 1024#32)
        (k3_pay4 (di3 V c t)) (db3 V c t) (acc3 V c t.val t.isLt)
  Φ t := Phi3 V c t.val (Nat.le_of_lt_succ t.isLt)
  q := fun
    | 0 => fullShare.left
    | 1 => fullShare.right.left
    | 2 => fullShare.right.right
    | 3 => fullShare.left
    | 4 => fullShare.right
    | 5 => fullShare
    | ⟨_ + 6, h⟩ => absurd h (Nat.not_lt.2 (Nat.le_add_left _ _))
  owed _ := 0

theorem A_eq3 (c : Dev nD) (w : Fin cfg3.W) : (dat3 V c).A w = V c (Pipeline.arrRef spec3 w) := rfl

theorem after3_5 (c : Dev nD) (t : Fin cfg3.N) : (dat3 V c).after 5 t =
    k3_pay2 (Scalar.muli (BitVec.ofNat 32 ((grid3.coords t) 0).val) 1024#32) (Scalar.muli (BitVec.ofNat 32 ((grid3.coords t) 1).val) 1024#32)
      (k3_pay4 (di3 V c t)) (db3 V c t) (acc3 V c t.val t.isLt) := by dsimp only [dat3]

-- No input is written: what is found of it is what is left of it.
theorem before3 (c : Dev nD) : ∀ w : Fin cfg3.W, w ≠ 5 → ∀ t d, (dat3 V c).before w t d = (dat3 V c).after w t
  | ⟨0, _⟩, _ | ⟨1, _⟩, _ | ⟨2, _⟩, _ | ⟨3, _⟩, _ | ⟨4, _⟩, _ => fun t d =>
    (dat3 V c).before_in_eq_fetched _ rfl (fun _ => rfl) (fun _ _ _ => rfl) (fun _ => rfl) t d
  | ⟨5, _⟩, h => absurd rfl h

theorem leaves3 (c : Dev nD) (w : Fin cfg3.W) (hw : w ≠ 5) (t : Fin cfg3.N) :
    (dat3 V c).leavesExact w t = ownsTc c ((cfg3.win w).stage (cfg3.slots t w)) fullShare ((dat3 V c).after w t) := by
  unfold Dat.leavesExact; rw [liveAt3 w t hw]

-- The output window leaves the blend at k = 3 and what it found at every other point.
theorem leaves3_5 (c : Dev nD) (t : Fin cfg3.N) (d) :
    ownsTc c (st3_5 t) fullShare (if cond3_1 (grid3.coords t) then (dat3 V c).after 5 t else (dat3 V c).before 5 t d) ⊢ (dat3 V c).leavesExact 5 t := by
  have hi := idle3_5 t
  by_cases h : cond3_1 (grid3.coords t)
  · rw [if_pos h] at hi ⊢; unfold Dat.leavesExact; rw [hi]
  · rw [if_neg h] at hi ⊢; rw [Dat.leavesExact_idle _ 5 t hi.1 hi.2]; iintro H; iexists d; iexact H

theorem sound_body3 (c : Dev nD) (t : Fin cfg3.N) :
    iprop(Phi3 V c t.val (Nat.le_of_lt t.isLt) ∗ (dat3 V c).owesAt () t.castSucc
        ∗ bigSep Finset.univ fun w => iprop(∃ d, ownsTc c ((cfg3.win w).stage (cfg3.slots t w)) fullShare ((dat3 V c).before w t d)))
      ⊢ wp frame (wpE (defs₀ (F := F)) Variants.none c none) Set.univ (bodyAt3 t) fun _ =>
        iprop(Phi3 V c (t.val + 1) t.isLt ∗ (dat3 V c).owesAt () t.castSucc ∗ bigSep Finset.univ fun w => (dat3 V c).leavesExact w t) := by
  rw [bigSep_W3, bigSep_W3]
  simp (disch := decide) only [before3 V c, leaves3 V c]
  unfold Phi3
  iintro ⟨⟨⟨%xs, %hxs, HS⟩, HR, Hg⟩, Ho, ⟨%d0, H0⟩, ⟨%d1, H1⟩, ⟨%d2, H2⟩, ⟨%d3, H3⟩, ⟨%d4, H4⟩, ⟨%d5, H5⟩⟩
  iapply (run3 c Set.univ (grid3.coords t) _ _ _ _ _ _ _ _ _ _ _ _ _ _ _ _ _ _ _ ((dat3 V c).before 5 t d5) _ _ (acc3_step V c t xs hxs) (excl3 t) _)
  isplitl [HR Hg Ho]; swap; · sl_close
  iintro ⟨H5, HS, H0, H1, H2, H3, H4⟩
  ihave H5 := (leaves3_5 V c t d5) $$ [H5]
  · iexact H5
  iframe HR Hg Ho
  isplitl [HS]
  · iexists _; iframe; ipureintro; exact fun _ => rfl
  sl_close

theorem body_obligation3 (c : Dev nD) : BodyObligation (dat3 (F := F) V c) (defs₀ (F := F)) Variants.none () Set.univ := sound_body3 V c

theorem hin3 (c : Dev nD) :
    iprop((∃ r, prngReg c r) ∗ Pipeline.scopedRest (Ix := Unit) (Name := ℕ) (U := UR sig nD τ) (Lvl := ℕ) (Val := Elt F) spec3 c) ⊢ (dat3 V c).Φ 0 := by
  change _ ⊢ Phi3 V c 0 (Nat.zero_le _)
  rw [scopedRest3_split]; unfold Phi3
  simp only [ownsTc, owns_whole]
  iintro ⟨Hg, ⟨%f, HS⟩, HR⟩
  iframe Hg HR
  iexists f; isplitr; · ipureintro; exact fun h => absurd rfl h
  iexact HS

theorem hout3 (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c) := by
  change Phi3 V c cfg3.N (Nat.le_refl _) ⊢ _
  rw [scopedRest3_split]; unfold Phi3
  simp only [ownsTc, owns_whole]
  iintro ⟨⟨%x, -, HS⟩, HR, Hg⟩
  iframe Hg HR
  iexists x; iexact HS

end Cert.Kernel.Gen

end
-- ==== Proof.K.R4.lean ====
import proofs.«106325_j17265768530288_1_alg».proof.Proof.Gen.Kernel.Launch
import proofs.«106325_j17265768530288_1_alg».proof.Proof.Gen.Kernel.Skeleton
import proofs.«106325_j17265768530288_1_alg».proof.Proof.Gen.Kernel.Points
import proofs.«106325_j17265768530288_1_alg».proof.Proof.LibStore
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev kb4 (c : Dev nD) (t : Fin cfg4.N) : Vec F S1024x1024 .bf16 := iblk4 V c 0 t
abbrev xb4 (c : Dev nD) (t : Fin cfg4.N) : Vec F S1024x128 .f32 := iblk4 V c 1 t
abbrev wb4 (c : Dev nD) (t : Fin cfg4.N) : Vec F S128x128 .f32 := iblk4 V c 2 t
abbrev bb4 (c : Dev nD) (t : Fin cfg4.N) : Vec F S1x128 .f32 := iblk4 V c 3 t

abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1
theorem hcond4_0 : ∀ t : Fin cfg4.N, cond4_0 (grid4.coords t) ↔ t.val % 4 = 0 :=
  (by decide +kernel : ∀ t : Fin grid4.N, cond4_0 (grid4.coords t) ↔ t.val % 4 = 0)
theorem excl4 : ∀ t : Fin cfg4.N, cond4_0 (grid4.coords t) → ¬cond4_1 (grid4.coords t) :=
  (by decide +kernel : ∀ t : Fin grid4.N, cond4_0 (grid4.coords t) → ¬cond4_1 (grid4.coords t))
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev scM4 : Memref sig .tc .vmem S1024x128 .f32 := Memref.whole cc4_scratch0

section Run
variable (c : Dev nD) (E : Set ℕ) (i : grid4.Coords)
    (arg2 : Memref sig .tc .vmem S1024x1024 .bf16) (harg2 : arg2.IsWhole) (arg3 : Memref sig .tc .vmem S1024x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (x0 : Vec F S1024x1024 .bf16) (x1 : Vec F S1024x128 .f32) (x2 : Vec F S128x128 .f32) (x3 : Vec F S1x128 .f32)

-- One body for every point: the accumulator restarts from zero at k = 0, the output is written only at k = 3.
theorem run4 (hx : cond4_0 i → ¬cond4_1 i) (xo xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg6 fullShare (if cond4_1 i then k4_pay3 (k4_pay2 (if cond4_0 i then k4_pay1 (F := F) else xs) x0 x1) x2 x3 else xo)
            ∗ owns (c : Thread nD τ) arg7 fullShare (k4_pay2 (if cond4_0 i then k4_pay1 (F := F) else xs) x0 x1)
            ∗ owns (c : Thread nD τ) arg2 fullShare x0 ∗ owns (c : Thread nD τ) arg3 fullShare x1 ∗ owns (c : Thread nD τ) arg4 fullShare x2 ∗ owns (c : Thread nD τ) arg5 fullShare x3) -∗ K ⟨⟩))
      ⊢ wp frame (wpE (defs₀ (F := F)) Variants.none c none) E (cc4__mm_update_kernel i arg2 harg2 arg3 harg3 arg4 harg4 arg5 harg5 arg6 harg6 arg7 harg7) K := by
  simp only [cc4__mm_update_kernel_eq_skeleton]; unfold cc4__mm_update_kernel_skel owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0 hf1 hf2 hf3 hf4 hfs
  by_cases hc0 : cond4_0 i <;> by_cases hc1 : cond4_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H4]; rotate_left; isplitl [HS]; rotate_left; isplitl [H0]; rotate_left; isplitl [H1]; rotate_left; isplitl [H2]; rotate_left
    all_goals
      iexists _; iframe; ipureintro
      try sl_unfold_words
      try rw [Hand.read_writes_unit _ _ Hand.off2_zero]
      simp only [View.readAt_eq_ld, View.ld_unit_zero (S := S128x128) Hand.off2_zero, View.ld_unit_zero (S := S1x128) Hand.off2_zero, View.ld_unit_zero (S := S1024x128) Hand.off2_zero,
        View.ld_unit_zero (S := S1024x1024) Hand.off2_zero, View.readCov_unit_zero (S := S1024x128) _ Hand.off2_zero]

end Run

def acc4 (c : Dev nD) : (n : ℕ) → n < cfg4.N → Vec F S1024x128 .f32
  | 0, hn => k4_pay2 (k4_pay1 (F := F)) (kb4 V c ⟨0, hn⟩) (xb4 V c ⟨0, hn⟩)
  | n + 1, hn =>
    if (n + 1) % 4 = 0 then k4_pay2 (k4_pay1 (F := F)) (kb4 V c ⟨n + 1, hn⟩) (xb4 V c ⟨n + 1, hn⟩)
    else k4_pay2 (acc4 c n (Nat.lt_of_succ_lt hn)) (kb4 V c ⟨n + 1, hn⟩) (xb4 V c ⟨n + 1, hn⟩)

theorem acc4_first (c : Dev nD) (t : Fin cfg4.N) (h0 : t.val % 4 = 0) :
    acc4 V c t.val t.isLt = k4_pay2 (k4_pay1 (F := F)) (kb4 V c t) (xb4 V c t) := by
  obtain ⟨n, hn⟩ := t
  cases n with
  | zero => rfl
  | succ n => exact if_pos h0

theorem acc4_next (c : Dev nD) (t : Fin cfg4.N) (h0 : ¬t.val % 4 = 0) :
    acc4 V c t.val t.isLt = k4_pay2 (acc4 V c (t.val - 1) (Nat.lt_of_le_of_lt (Nat.sub_le _ _) t.isLt)) (kb4 V c t) (xb4 V c t) := by
  obtain ⟨n, hn⟩ := t
  cases n with
  | zero => exact absurd (Nat.zero_mod _) h0
  | succ n => exact if_neg h0

-- The two equations of the accumulator as one step from whatever the point before left.
theorem acc4_step (c : Dev nD) (t : Fin cfg4.N) (xs : Vec F S1024x128 .f32)
    (hxs : ∀ h : t.val ≠ 0, xs = acc4 V c (t.val - 1) (Nat.lt_of_le_of_lt (Nat.sub_le _ _) t.isLt)) :
    acc4 V c t.val t.isLt = k4_pay2 (if cond4_0 (grid4.coords t) then k4_pay1 (F := F) else xs) (kb4 V c t) (xb4 V c t) := by
  by_cases h0 : t.val % 4 = 0
  · rw [if_pos ((hcond4_0 t).mpr h0), acc4_first V c t h0]
  · rw [if_neg (mt (hcond4_0 t).mp h0), acc4_next V c t h0, hxs fun e => h0 (by rw [e])]

def Phi4 (c : Dev nD) (n : ℕ) (hn : n ≤ cfg4.N) : sProp 𝕄 :=
  iprop((∃ x, ⌜∀ h : n ≠ 0, x = acc4 V c (n - 1) (by omega)⌝ ∗ owns (c : Thread nD τ) scM4 fullShare x)
    ∗ Pipeline.scopedRestBut (Ix := Unit) (Name := ℕ) (U := UR sig nD τ) (Lvl := ℕ) (Val := Elt F) spec4 c [cc4_scratch0]
    ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (acc4 V c t.val t.isLt) (wb4 V c t) (bb4 V c t)
  Φ t := Phi4 V c t.val (Nat.le_of_lt_succ t.isLt)
  q _ := fullShare
  owed _ := 0

theorem after4_4 (c : Dev nD) (t : Fin cfg4.N) : (dat4 V c).after 4 t = k4_pay3 (acc4 V c t.val t.isLt) (wb4 V c t) (bb4 V c t) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

-- The output window is written where k = 3 and keeps what it held elsewhere.
theorem leaves4_out (c : Dev nD) (t : Fin cfg4.N) (d) :
    owns (c : Thread nD τ) (st4_4 t) fullShare (if cond4_1 (grid4.coords t) then (dat4 V c).after 4 t else (dat4 V c).before 4 t d) ⊢ (dat4 V c).leavesExact 4 t := by
  by_cases h : cond4_1 (grid4.coords t)
  · rw [if_pos h]; unfold Dat.leavesExact; rw [liveAt4_4 t h]
  · rw [if_neg h, Dat.leavesExact_idle _ 4 t (idleAt4_4 t h) (noFlush4_4 t h)]; iintro H; iexists d; iexact H

theorem body_obligation4 (c : Dev nD) : BodyObligation (dat4 (F := F) V c) (defs₀ (F := F)) Variants.none () Set.univ := fun t => by
  rw [bigSep_W4, bigSep_W4]
  change iprop(Phi4 V c t.val (Nat.le_of_lt t.isLt) ∗ _) ⊢ wp _ _ _ (bodyAt4 t) fun _ =>
    iprop(Phi4 V c (t.val + 1) t.isLt ∗ (dat4 V c).owesAt () t.castSucc ∗ owns (c : Thread nD τ) (st4_0 t) fullShare (iblk4 V c 0 t)
      ∗ owns (c : Thread nD τ) (st4_1 t) fullShare (iblk4 V c 1 t) ∗ owns (c : Thread nD τ) (st4_2 t) fullShare (iblk4 V c 2 t)
      ∗ owns (c : Thread nD τ) (st4_3 t) fullShare (iblk4 V c 3 t) ∗ (dat4 V c).leavesExact 4 t)
  simp only [before4_0, before4_1, before4_2, before4_3]
  unfold Phi4
  iintro ⟨⟨⟨%xs, %hxs, HS⟩, HR, Hg⟩, Ho, ⟨%d0, H0⟩, ⟨%d1, H1⟩, ⟨%d2, H2⟩, ⟨%d3, H3⟩, ⟨%d4, H4⟩⟩
  iapply (run4 c Set.univ (grid4.coords t) _ _ _ _ _ _ _ _ _ _ _ _ (iblk4 V c 0 t) (iblk4 V c 1 t) (iblk4 V c 2 t) (iblk4 V c 3 t) (excl4 t) ((dat4 V c).before 4 t d4) xs _)
  iframe H0 H1 H2 H3 H4 HS
  iintro ⟨H4, HS, H0, H1, H2, H3⟩
  rw [← acc4_step V c t xs hxs]
  iframe HR Hg Ho H0 H1 H2 H3
  isplitl [HS]
  · iexists _; iframe HS; ipureintro; exact fun _ => rfl
  iapply leaves4_out V c t d4; iexact H4

theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Phi4 V c 0 (Nat.zero_le _) from rfl, scopedRest4_split]
  unfold Phi4
  simp only [scM4, owns_whole]
  iintro ⟨Hg, ⟨%f, HS⟩, HR⟩
  iframe Hg HR; iexists f; iframe HS; ipureintro; exact fun h => absurd rfl h

theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl, scopedRest4_split]
  unfold Phi4
  simp only [scM4, owns_whole]
  iintro ⟨⟨%x, -, HS⟩, HR, Hg⟩
  iframe Hg HR; iexists x; iexact HS

end Cert.Kernel.Gen

end
-- ==== Proof.K.R5.lean ====
import proofs.«106325_j17265768530288_1_alg».proof.Proof.Gen.Kernel.Launch
import proofs.«106325_j17265768530288_1_alg».proof.Proof.Gen.Kernel.Skeleton
import proofs.«106325_j17265768530288_1_alg».proof.Proof.Gen.Kernel.Points
import proofs.«106325_j17265768530288_1_alg».proof.Proof.LibStore
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev kb5 (c : Dev nD) (t : Fin cfg5.N) : Vec F S1024x1024 .bf16 := iblk5 V c 0 t
abbrev xb5 (c : Dev nD) (t : Fin cfg5.N) : Vec F S1024x128 .f32 := iblk5 V c 1 t
abbrev wb5 (c : Dev nD) (t : Fin cfg5.N) : Vec F S128x128 .f32 := iblk5 V c 2 t
abbrev bb5 (c : Dev nD) (t : Fin cfg5.N) : Vec F S1x128 .f32 := iblk5 V c 3 t

abbrev cond5_0 (i : grid5.Coords) : Prop := (Scalar.cmpi .ne (Scalar.extui (Scalar.cmpi .eq (BitVec.ofNat 32 (i 1).val) 0#32)) 0#32) = 1#1
abbrev cond5_1 (i : grid5.Coords) : Prop := k5_cond2 i = 1#1
theorem hcond5_0 : ∀ t : Fin cfg5.N, cond5_0 (grid5.coords t) ↔ t.val % 4 = 0 :=
  (by decide +kernel : ∀ t : Fin grid5.N, cond5_0 (grid5.coords t) ↔ t.val % 4 = 0)
theorem excl5 : ∀ t : Fin cfg5.N, cond5_0 (grid5.coords t) → ¬cond5_1 (grid5.coords t) :=
  (by decide +kernel : ∀ t : Fin grid5.N, cond5_0 (grid5.coords t) → ¬cond5_1 (grid5.coords t))
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

abbrev scM5 : Memref sig .tc .vmem S1024x128 .f32 := Memref.whole cc5_scratch0

section Run
variable (c : Dev nD) (E : Set ℕ) (i : grid5.Coords)
    (arg2 : Memref sig .tc .vmem S1024x1024 .bf16) (harg2 : arg2.IsWhole) (arg3 : Memref sig .tc .vmem S1024x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (x0 : Vec F S1024x1024 .bf16) (x1 : Vec F S1024x128 .f32) (x2 : Vec F S128x128 .f32) (x3 : Vec F S1x128 .f32)

-- One body for every point: the accumulator restarts from zero at k = 0, the output is written only at k = 3.
theorem run5 (hx : cond5_0 i → ¬cond5_1 i) (xo xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg6 fullShare (if cond5_1 i then k5_pay3 (k5_pay2 (if cond5_0 i then k5_pay1 (F := F) else xs) x0 x1) x2 x3 else xo)
            ∗ owns (c : Thread nD τ) arg7 fullShare (k5_pay2 (if cond5_0 i then k5_pay1 (F := F) else xs) x0 x1)
            ∗ owns (c : Thread nD τ) arg2 fullShare x0 ∗ owns (c : Thread nD τ) arg3 fullShare x1 ∗ owns (c : Thread nD τ) arg4 fullShare x2 ∗ owns (c : Thread nD τ) arg5 fullShare x3) -∗ K ⟨⟩))
      ⊢ wp frame (wpE (defs₀ (F := F)) Variants.none c none) E (cc5__mm_update_kernel i arg2 harg2 arg3 harg3 arg4 harg4 arg5 harg5 arg6 harg6 arg7 harg7) K := by
  simp only [cc5__mm_update_kernel_eq_skeleton]; unfold cc5__mm_update_kernel_skel owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0 hf1 hf2 hf3 hf4 hfs
  by_cases hc0 : cond5_0 i <;> by_cases hc1 : cond5_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H4]; rotate_left; isplitl [HS]; rotate_left; isplitl [H0]; rotate_left; isplitl [H1]; rotate_left; isplitl [H2]; rotate_left
    all_goals
      iexists _; iframe; ipureintro
      try sl_unfold_words
      try rw [Hand.read_writes_unit _ _ Hand.off2_zero]
      simp only [View.readAt_eq_ld, View.ld_unit_zero (S := S128x128) Hand.off2_zero, View.ld_unit_zero (S := S1x128) Hand.off2_zero, View.ld_unit_zero (S := S1024x128) Hand.off2_zero,
        View.ld_unit_zero (S := S1024x1024) Hand.off2_zero, View.readCov_unit_zero (S := S1024x128) _ Hand.off2_zero]

end Run

def acc5 (c : Dev nD) : (n : ℕ) → n < cfg5.N → Vec F S1024x128 .f32
  | 0, hn => k5_pay2 (k5_pay1 (F := F)) (kb5 V c ⟨0, hn⟩) (xb5 V c ⟨0, hn⟩)
  | n + 1, hn =>
    if (n + 1) % 4 = 0 then k5_pay2 (k5_pay1 (F := F)) (kb5 V c ⟨n + 1, hn⟩) (xb5 V c ⟨n + 1, hn⟩)
    else k5_pay2 (acc5 c n (Nat.lt_of_succ_lt hn)) (kb5 V c ⟨n + 1, hn⟩) (xb5 V c ⟨n + 1, hn⟩)

theorem acc5_first (c : Dev nD) (t : Fin cfg5.N) (h0 : t.val % 4 = 0) :
    acc5 V c t.val t.isLt = k5_pay2 (k5_pay1 (F := F)) (kb5 V c t) (xb5 V c t) := by
  obtain ⟨n, hn⟩ := t
  cases n with
  | zero => rfl
  | succ n => exact if_pos h0

theorem acc5_next (c : Dev nD) (t : Fin cfg5.N) (h0 : ¬t.val % 4 = 0) :
    acc5 V c t.val t.isLt = k5_pay2 (acc5 V c (t.val - 1) (Nat.lt_of_le_of_lt (Nat.sub_le _ _) t.isLt)) (kb5 V c t) (xb5 V c t) := by
  obtain ⟨n, hn⟩ := t
  cases n with
  | zero => exact absurd (Nat.zero_mod _) h0
  | succ n => exact if_neg h0

-- The two equations of the accumulator as one step from whatever the point before left.
theorem acc5_step (c : Dev nD) (t : Fin cfg5.N) (xs : Vec F S1024x128 .f32)
    (hxs : ∀ h : t.val ≠ 0, xs = acc5 V c (t.val - 1) (Nat.lt_of_le_of_lt (Nat.sub_le _ _) t.isLt)) :
    acc5 V c t.val t.isLt = k5_pay2 (if cond5_0 (grid5.coords t) then k5_pay1 (F := F) else xs) (kb5 V c t) (xb5 V c t) := by
  by_cases h0 : t.val % 4 = 0
  · rw [if_pos ((hcond5_0 t).mpr h0), acc5_first V c t h0]
  · rw [if_neg (mt (hcond5_0 t).mp h0), acc5_next V c t h0, hxs fun e => h0 (by rw [e])]

def Phi5 (c : Dev nD) (n : ℕ) (hn : n ≤ cfg5.N) : sProp 𝕄 :=
  iprop((∃ x, ⌜∀ h : n ≠ 0, x = acc5 V c (n - 1) (by omega)⌝ ∗ owns (c : Thread nD τ) scM5 fullShare x)
    ∗ Pipeline.scopedRestBut (Ix := Unit) (Name := ℕ) (U := UR sig nD τ) (Lvl := ℕ) (Val := Elt F) spec5 c [cc5_scratch0]
    ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (acc5 V c t.val t.isLt) (wb5 V c t) (bb5 V c t)
  Φ t := Phi5 V c t.val (Nat.le_of_lt_succ t.isLt)
  q _ := fullShare
  owed _ := 0

theorem after5_4 (c : Dev nD) (t : Fin cfg5.N) : (dat5 V c).after 4 t = k5_pay3 (acc5 V c t.val t.isLt) (wb5 V c t) (bb5 V c t) := rfl

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

-- The output window is written where k = 3 and keeps what it held elsewhere.
theorem leaves5_out (c : Dev nD) (t : Fin cfg5.N) (d) :
    owns (c : Thread nD τ) (st5_4 t) fullShare (if cond5_1 (grid5.coords t) then (dat5 V c).after 4 t else (dat5 V c).before 4 t d) ⊢ (dat5 V c).leavesExact 4 t := by
  by_cases h : cond5_1 (grid5.coords t)
  · rw [if_pos h]; unfold Dat.leavesExact; rw [liveAt5_4 t h]
  · rw [if_neg h, Dat.leavesExact_idle _ 4 t (idleAt5_4 t h) (noFlush5_4 t h)]; iintro H; iexists d; iexact H

theorem body_obligation5 (c : Dev nD) : BodyObligation (dat5 (F := F) V c) (defs₀ (F := F)) Variants.none () Set.univ := fun t => by
  rw [bigSep_W5, bigSep_W5]
  change iprop(Phi5 V c t.val (Nat.le_of_lt t.isLt) ∗ _) ⊢ wp _ _ _ (bodyAt5 t) fun _ =>
    iprop(Phi5 V c (t.val + 1) t.isLt ∗ (dat5 V c).owesAt () t.castSucc ∗ owns (c : Thread nD τ) (st5_0 t) fullShare (iblk5 V c 0 t)
      ∗ owns (c : Thread nD τ) (st5_1 t) fullShare (iblk5 V c 1 t) ∗ owns (c : Thread nD τ) (st5_2 t) fullShare (iblk5 V c 2 t)
      ∗ owns (c : Thread nD τ) (st5_3 t) fullShare (iblk5 V c 3 t) ∗ (dat5 V c).leavesExact 4 t)
  simp only [before5_0, before5_1, before5_2, before5_3]
  unfold Phi5
  iintro ⟨⟨⟨%xs, %hxs, HS⟩, HR, Hg⟩, Ho, ⟨%d0, H0⟩, ⟨%d1, H1⟩, ⟨%d2, H2⟩, ⟨%d3, H3⟩, ⟨%d4, H4⟩⟩
  iapply (run5 c Set.univ (grid5.coords t) _ _ _ _ _ _ _ _ _ _ _ _ (iblk5 V c 0 t) (iblk5 V c 1 t) (iblk5 V c 2 t) (iblk5 V c 3 t) (excl5 t) ((dat5 V c).before 4 t d4) xs _)
  iframe H0 H1 H2 H3 H4 HS
  iintro ⟨H4, HS, H0, H1, H2, H3⟩
  rw [← acc5_step V c t xs hxs]
  iframe HR Hg Ho H0 H1 H2 H3
  isplitl [HS]
  · iexists _; iframe HS; ipureintro; exact fun _ => rfl
  iapply leaves5_out V c t d4; iexact H4

theorem hin5 (c : Dev nD) :
    iprop((∃ r, prngReg c r) ∗ Pipeline.scopedRest (Ix := Unit) (Name := ℕ) (U := UR sig nD τ) (Lvl := ℕ) (Val := Elt F) spec5 c) ⊢ (dat5 V c).Φ 0 := by
  rw [show (dat5 V c).Φ 0 = Phi5 V c 0 (Nat.zero_le _) from rfl, scopedRest5_split]
  unfold Phi5
  simp only [scM5, owns_whole]
  iintro ⟨Hg, ⟨%f, HS⟩, HR⟩
  iframe Hg HR; iexists f; iframe HS; ipureintro; exact fun h => absurd rfl h

theorem hout5 (c : Dev nD) :
    (dat5 V c).Φ (Fin.last cfg5.N) ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Phi5 V c (Fin.last cfg5.N).val (Nat.le_of_lt_succ (Fin.last cfg5.N).isLt) from rfl, scopedRest5_split]
  unfold Phi5
  simp only [scM5, owns_whole]
  iintro ⟨⟨%x, -, HS⟩, HR, Hg⟩
  iframe Hg HR; iexists x; iexact HS

end Cert.Kernel.Gen

end
-- ==== Proof.K.Shares.lean ====
import proofs.«106325_j17265768530288_1_alg».proof.Proof.Gen.Kernel.Launch
import Idealize.ShloMosaic.Lib.Pipeline.Frame
import Idealize.ShloMosaic.Lib.Pipeline.Launch
import Idealize.ShloMosaic.Lib.Pipeline.Kit
import Idealize.ShloMosaic.Rules.PointsTo

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer `r` of core `c` at share `q`, holding what the valuation gives it. -/
abbrev heldAt (c : Dev nD) (W : Valuation τ sig (Elt F)) (r : Ref sig .tc) (q : PosShare TreeShare) : sProp 𝕄 :=
  iprop((c : Thread nD τ).loc r ↦{q} W (Proc.devRef .tc r))

/-- Three buffers, the first dealt in three and the second in two by halving the full share, the third whole. -/
abbrev dealtShares (c : Dev nD) (W : Valuation τ sig (Elt F)) (a b o : Ref sig .tc) : sProp 𝕄 :=
  iprop(heldAt c W a fullShare.left ∗ heldAt c W a fullShare.right.left ∗ heldAt c W a fullShare.right.right
    ∗ heldAt c W b fullShare.left ∗ heldAt c W b fullShare.right ∗ heldAt c W o fullShare)

variable (c : Dev nD) (W : Valuation τ sig (Elt F))

/-- Halving is lossless: the three buffers whole are the same resource as their dealt shares. -/
theorem deal_shares (a b o : Ref sig .tc) :
    iprop(heldAt c W a fullShare ∗ heldAt c W b fullShare ∗ heldAt c W o fullShare) ⊣⊢ dealtShares c W a b o := by
  unfold dealtShares heldAt
  constructor
  · iintro ⟨Ha, Hb, Ho⟩
    ihave Ha := (pointsTo_share (PosShare.mem_left_op_right fullShare)).1 $$ Ha
    icases Ha with ⟨Ha0, Ha⟩
    ihave Ha := (pointsTo_share (PosShare.mem_left_op_right fullShare.right)).1 $$ Ha
    icases Ha with ⟨Ha1, Ha2⟩
    ihave Hb := (pointsTo_share (PosShare.mem_left_op_right fullShare)).1 $$ Hb
    icases Hb with ⟨Hb3, Hb4⟩
    iframe
  · iintro ⟨Ha0, Ha1, Ha2, Hb3, Hb4, Ho⟩
    iframe Ho
    isplitl [Ha0 Ha1 Ha2]
    · iapply (pointsTo_share (PosShare.mem_left_op_right fullShare)).2
      iframe Ha0
      iapply (pointsTo_share (PosShare.mem_left_op_right fullShare.right)).2
      iframe
    iapply (pointsTo_share (PosShare.mem_left_op_right fullShare)).2
    iframe

/-- The buffers off a region's arrays are the same resource at two valuations that agree off those arrays. -/
theorem unscopedRest_agree {gr Wn : Nat} (win : Fin Wn → Pipeline.WinSpec sig gr) (W' : Valuation τ sig (Elt F))
    (hrest : ∀ b : Ref sig .tc, b ∉ Finset.univ.image (Pipeline.arrRef win) → W' (Proc.devRef .tc b) = W (Proc.devRef .tc b)) :
    (Pipeline.unscopedRest (Ix := Unit) (Name := ℕ) (U := UR sig nD τ) (Lvl := ℕ) win c (fun b => W (Proc.devRef .tc b)) : sProp 𝕄)
      = Pipeline.unscopedRest (Ix := Unit) (Name := ℕ) (U := UR sig nD τ) (Lvl := ℕ) win c (fun b => W' (Proc.devRef .tc b)) := by
  unfold Pipeline.unscopedRest
  exact bigSep_congr fun b hb => by dsimp only; rw [hrest b (Finset.mem_sdiff.mp hb).2]

theorem held_split2 (c : Dev nD) (W : Valuation τ sig (Elt F)) :
    (StableHlo.held (c : Thread nD τ) (Pipeline.ucRefs τ sig) W : sProp 𝕄)
      = iprop((heldAt c W main_arg1 fullShare ∗ heldAt c W main_v12 fullShare ∗ heldAt c W main_v14 fullShare)
        ∗ Pipeline.unscopedRest (Ix := Unit) (Name := ℕ) (U := UR sig nD τ) (Lvl := ℕ) spec2 c (fun b => W (Proc.devRef .tc b))) := by
  classical
  rw [← Pipeline.unscopedBufs_held (Ix := Unit) (Name := ℕ) (U := UR sig nD τ) (Lvl := ℕ) c W, Pipeline.unscopedBufs_split₀ cfgs 2 winFacts₀2.arr_unscoped c]
  unfold Pipeline.arrBufs
  rw [BI.bigSep_eq_bigSepL_of_eq [main_arg1, main_v12, main_v14] (by decide) (by decide)]
  rfl

theorem arrays_eq2 (c : Dev nD) (dat : Dat τ (Elt F) Unit ℕ (UR sig nD τ) ℕ cfg2 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg2.W) → Buf (Elt F) ((cfg2.win w).arr.view.loc (c : Thread nD τ)))
    (hG : ∀ w, G w = W (Proc.devRef .tc (Pipeline.arrRef spec2 w))) :
    (dat.arrays G : sProp 𝕄) = dealtShares c W main_arg1 main_v12 main_v14 := by
  unfold Dat.arrays
  rw [bigSep_W2]
  exact congrArg₂ BI.sep (by rw [show dat.share 0 = _ from (if_neg Bool.false_ne_true).trans hq0, (arr_whole2 0).set_eq_univ, hG 0])
    (congrArg₂ BI.sep (by rw [show dat.share 1 = _ from (if_neg Bool.false_ne_true).trans hq1, (arr_whole2 1).set_eq_univ, hG 1])
    (congrArg₂ BI.sep (by rw [show dat.share 2 = _ from (if_neg Bool.false_ne_true).trans hq2, (arr_whole2 2).set_eq_univ, hG 2])
    (congrArg₂ BI.sep (by rw [show dat.share 3 = _ from (if_neg Bool.false_ne_true).trans hq3, (arr_whole2 3).set_eq_univ, hG 3])
    (congrArg₂ BI.sep (by rw [show dat.share 4 = _ from (if_neg Bool.false_ne_true).trans hq4, (arr_whole2 4).set_eq_univ, hG 4])
      (by rw [show dat.share 5 = fullShare from if_pos rfl, (arr_whole2 5).set_eq_univ, hG 5])))))

theorem arrays_of_held2 (c : Dev nD) (dat : Dat τ (Elt F) Unit ℕ (UR sig nD τ) ℕ cfg2 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg2.W) → Buf (Elt F) ((cfg2.win w).arr.view.loc (c : Thread nD τ)))
    (hG : ∀ w, G w = W (Proc.devRef .tc (Pipeline.arrRef spec2 w))) :
    (StableHlo.held (c : Thread nD τ) (Pipeline.ucRefs τ sig) W : sProp 𝕄)
      ⊢ iprop(dat.arrays G ∗ Pipeline.unscopedRest (Ix := Unit) (Name := ℕ) (U := UR sig nD τ) (Lvl := ℕ) spec2 c (fun b => W (Proc.devRef .tc b))) := by
  rw [held_split2, arrays_eq2 c dat hq0 hq1 hq2 hq3 hq4 W G hG]
  exact sep_mono_left (deal_shares c W _ _ _).1

theorem held_of_arrays2 (c : Dev nD) (dat : Dat τ (Elt F) Unit ℕ (UR sig nD τ) ℕ cfg2 c)
    (hq0 : dat.q 0 = fullShare.left) (hq1 : dat.q 1 = fullShare.right.left) (hq2 : dat.q 2 = fullShare.right.right)
    (hq3 : dat.q 3 = fullShare.left) (hq4 : dat.q 4 = fullShare.right)
    (W W' : Valuation τ sig (Elt F)) (G : (w : Fin cfg2.W) → Buf (Elt F) ((cfg2.win w).arr.view.loc (c : Thread nD τ)))
    (hG : ∀ w, G w = W' (Proc.devRef .tc (Pipeline.arrRef spec2 w)))
    (hrest : ∀ b : Ref sig .tc, b ∉ Finset.univ.image (Pipeline.arrRef spec2) → W' (Proc.devRef .tc b) = W (Proc.devRef .tc b)) :
    iprop(dat.arrays G ∗ Pipeline.unscopedRest (Ix := Unit) (Name := ℕ) (U := UR sig nD τ) (Lvl := ℕ) spec2 c (fun b => W (Proc.devRef .tc b)))
      ⊢ (StableHlo.held (c : Thread nD τ) (Pipeline.ucRefs τ sig) W' : sProp 𝕄) := by
  rw [held_split2, arrays_eq2 c dat hq0 hq1 hq2 hq3 hq4 W' G hG, unscopedRest_agree c W spec2 W' hrest]
  exact sep_mono_left (deal_shares c W' _ _ _).2

theorem held_split3 (c : Dev nD) (W : Valuation τ sig (Elt F)) :
    (StableHlo.held (c : Thread nD τ) (Pipeline.ucRefs τ sig) W : sProp 𝕄)
      = iprop((heldAt c W main_v13 fullShare ∗ heldAt c W main_v12 fullShare ∗ heldAt c W main_v15 fullShare)
        ∗ Pipeline.unscopedRest (Ix := Unit) (Name := ℕ) (U := UR sig nD τ) (Lvl := ℕ) spec3 c (fun b => W (Proc.devRef .tc b))) := by
  classical
  rw [← Pipeline.unscopedBufs_held (Ix := Unit) (Name := ℕ) (U := UR sig nD τ) (Lvl := ℕ) c W, Pipeline.unscopedBufs_split₀ cfgs 3 winFacts₀3.arr_unscoped c]
  unfold Pipeline.arrBufs
  rw [BI.bigSep_eq_bigSepL_of_eq [main_v13, main_v12, main_v15] (by decide) (by decide)]
  rfl

theorem arrays_eq3 (c : Dev nD) (dat : Dat τ (Elt F) Unit ℕ (UR sig nD τ) ℕ cfg3 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg3.W) → Buf (Elt F) ((cfg3.win w).arr.view.loc (c : Thread nD τ)))
    (hG : ∀ w, G w = W (Proc.devRef .tc (Pipeline.arrRef spec3 w))) :
    (dat.arrays G : sProp 𝕄) = dealtShares c W main_v13 main_v12 main_v15 := by
  unfold Dat.arrays
  rw [bigSep_W3]
  exact congrArg₂ BI.sep (by rw [show dat.share 0 = _ from (if_neg Bool.false_ne_true).trans hq0, (arr_whole3 0).set_eq_univ, hG 0])
    (congrArg₂ BI.sep (by rw [show dat.share 1 = _ from (if_neg Bool.false_ne_true).trans hq1, (arr_whole3 1).set_eq_univ, hG 1])
    (congrArg₂ BI.sep (by rw [show dat.share 2 = _ from (if_neg Bool.false_ne_true).trans hq2, (arr_whole3 2).set_eq_univ, hG 2])
    (congrArg₂ BI.sep (by rw [show dat.share 3 = _ from (if_neg Bool.false_ne_true).trans hq3, (arr_whole3 3).set_eq_univ, hG 3])
    (congrArg₂ BI.sep (by rw [show dat.share 4 = _ from (if_neg Bool.false_ne_true).trans hq4, (arr_whole3 4).set_eq_univ, hG 4])
      (by rw [show dat.share 5 = fullShare from if_pos rfl, (arr_whole3 5).set_eq_univ, hG 5])))))

theorem arrays_of_held3 (c : Dev nD) (dat : Dat τ (Elt F) Unit ℕ (UR sig nD τ) ℕ cfg3 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg3.W) → Buf (Elt F) ((cfg3.win w).arr.view.loc (c : Thread nD τ)))
    (hG : ∀ w, G w = W (Proc.devRef .tc (Pipeline.arrRef spec3 w))) :
    (StableHlo.held (c : Thread nD τ) (Pipeline.ucRefs τ sig) W : sProp 𝕄)
      ⊢ iprop(dat.arrays G ∗ Pipeline.unscopedRest (Ix := Unit) (Name := ℕ) (U := UR sig nD τ) (Lvl := ℕ) spec3 c (fun b => W (Proc.devRef .tc b))) := by
  rw [held_split3, arrays_eq3 c dat hq0 hq1 hq2 hq3 hq4 W G hG]
  exact sep_mono_left (deal_shares c W _ _ _).1

theorem held_of_arrays3 (c : Dev nD) (dat : Dat τ (Elt F) Unit ℕ (UR sig nD τ) ℕ cfg3 c)
    (hq0 : dat.q 0 = fullShare.left) (hq1 : dat.q 1 = fullShare.right.left) (hq2 : dat.q 2 = fullShare.right.right)
    (hq3 : dat.q 3 = fullShare.left) (hq4 : dat.q 4 = fullShare.right)
    (W W' : Valuation τ sig (Elt F)) (G : (w : Fin cfg3.W) → Buf (Elt F) ((cfg3.win w).arr.view.loc (c : Thread nD τ)))
    (hG : ∀ w, G w = W' (Proc.devRef .tc (Pipeline.arrRef spec3 w)))
    (hrest : ∀ b : Ref sig .tc, b ∉ Finset.univ.image (Pipeline.arrRef spec3) → W' (Proc.devRef .tc b) = W (Proc.devRef .tc b)) :
    iprop(dat.arrays G ∗ Pipeline.unscopedRest (Ix := Unit) (Name := ℕ) (U := UR sig nD τ) (Lvl := ℕ) spec3 c (fun b => W (Proc.devRef .tc b)))
      ⊢ (StableHlo.held (c : Thread nD τ) (Pipeline.ucRefs τ sig) W' : sProp 𝕄) := by
  rw [held_split3, arrays_eq3 c dat hq0 hq1 hq2 hq3 hq4 W' G hG, unscopedRest_agree c W spec3 W' hrest]
  exact sep_mono_left (deal_shares c W' _ _ _).2

end Cert.Kernel.Gen

end
-- ==== Proof.K.Run.lean ====
import proofs.«106325_j17265768530288_1_alg».proof.Proof.Gen.Kernel.Regions
import proofs.«106325_j17265768530288_1_alg».proof.Proof.K.R0
import proofs.«106325_j17265768530288_1_alg».proof.Proof.K.R1
import proofs.«106325_j17265768530288_1_alg».proof.Proof.K.R2
import proofs.«106325_j17265768530288_1_alg».proof.Proof.K.R3
import proofs.«106325_j17265768530288_1_alg».proof.Proof.K.R4
import proofs.«106325_j17265768530288_1_alg».proof.Proof.K.R5
import proofs.«106325_j17265768530288_1_alg».proof.Proof.K.Shares
import Idealize.ShloMosaic.Lib.Pipeline.RegionsLoop
import Idealize.ShloMosaic.Lib.Pipeline.FrameSuffix

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Wv0 (c : Dev nD) : Valuation τ sig (Elt F) := fun b => m (c, b)
abbrev Vr0 : (c : Dev nD) → (b : Ref sig .tc) → Buf (Elt F) ((c : Thread nD τ).loc b) := fun c b => Wv0 m c b

def Wv1 (c : Dev nD) : Valuation τ sig (Elt F) :=
  Pipeline.withArrays spec0 c (Wv0 m c) fun w => (dat0 (Vr0 m) c).arrAt w cfg0.N
theorem Wv1_arr (c : Dev nD) (w : Fin cfg0.W) :
    Wv1 m c (Proc.devRef .tc (Pipeline.arrRef spec0 w)) = (dat0 (Vr0 m) c).arrAt w cfg0.N :=
  Pipeline.withArrays_arr spec0 launch0.win.arr_inj c _ _ w

def Wv2 (c : Dev nD) : Valuation τ sig (Elt F) := StableHlo.after hostOps1 (Wv1 m c)
def Wv3 (c : Dev nD) : Valuation τ sig (Elt F) := StableHlo.after hostOps1_1 (Wv2 m c)
def Wv4 (c : Dev nD) : Valuation τ sig (Elt F) := StableHlo.after hostOps1_2 (Wv3 m c)
abbrev Vr4 : (c : Dev nD) → (b : Ref sig .tc) → Buf (Elt F) ((c : Thread nD τ).loc b) := fun c b => Wv4 m c b

def Wv5 (c : Dev nD) : Valuation τ sig (Elt F) :=
  Pipeline.withArrays spec1 c (Wv4 m c) fun w => (dat1 (Vr4 m) c).arrAt w cfg1.N
theorem Wv5_arr (c : Dev nD) (w : Fin cfg1.W) :
    Wv5 m c (Proc.devRef .tc (Pipeline.arrRef spec1 w)) = (dat1 (Vr4 m) c).arrAt w cfg1.N :=
  Pipeline.withArrays_arr spec1 launch1.win.arr_inj c _ _ w
abbrev Vr5 : (c : Dev nD) → (b : Ref sig .tc) → Buf (Elt F) ((c : Thread nD τ).loc b) := fun c b => Wv5 m c b

def Wv6 (c : Dev nD) : Valuation τ sig (Elt F) :=
  Function.update (Wv5 m c) (Proc.devRef .tc main_v14) ((dat2 (Vr5 m) c).arrAt 5 cfg2.N)
theorem Wv6_out (c : Dev nD) : Wv6 m c (Proc.devRef .tc main_v14) = (dat2 (Vr5 m) c).arrAt 5 cfg2.N :=
  Function.update_self ..
abbrev Vr6 : (c : Dev nD) → (b : Ref sig .tc) → Buf (Elt F) ((c : Thread nD τ).loc b) := fun c b => Wv6 m c b

def Wv7 (c : Dev nD) : Valuation τ sig (Elt F) :=
  Function.update (Wv6 m c) (Proc.devRef .tc main_v15) ((dat3 (Vr6 m) c).arrAt 5 cfg3.N)
theorem Wv7_out (c : Dev nD) : Wv7 m c (Proc.devRef .tc main_v15) = (dat3 (Vr6 m) c).arrAt 5 cfg3.N :=
  Function.update_self ..

def Wv8 (c : Dev nD) : Valuation τ sig (Elt F) := StableHlo.after hostOps4 (Wv7 m c)
abbrev Vr8 : (c : Dev nD) → (b : Ref sig .tc) → Buf (Elt F) ((c : Thread nD τ).loc b) := fun c b => Wv8 m c b

def Wv9 (c : Dev nD) : Valuation τ sig (Elt F) :=
  Pipeline.withArrays spec4 c (Wv8 m c) fun w => (dat4 (Vr8 m) c).arrAt w cfg4.N
theorem Wv9_arr (c : Dev nD) (w : Fin cfg4.W) :
    Wv9 m c (Proc.devRef .tc (Pipeline.arrRef spec4 w)) = (dat4 (Vr8 m) c).arrAt w cfg4.N :=
  Pipeline.withArrays_arr spec4 launch4.win.arr_inj c _ _ w
abbrev Vr9 : (c : Dev nD) → (b : Ref sig .tc) → Buf (Elt F) ((c : Thread nD τ).loc b) := fun c b => Wv9 m c b

def Wv10 (c : Dev nD) : Valuation τ sig (Elt F) :=
  Pipeline.withArrays spec5 c (Wv9 m c) fun w => (dat5 (Vr9 m) c).arrAt w cfg5.N
theorem Wv10_arr (c : Dev nD) (w : Fin cfg5.W) :
    Wv10 m c (Proc.devRef .tc (Pipeline.arrRef spec5 w)) = (dat5 (Vr9 m) c).arrAt w cfg5.N :=
  Pipeline.withArrays_arr spec5 launch5.win.arr_inj c _ _ w

def Wv11 (c : Dev nD) : Valuation τ sig (Elt F) := StableHlo.after hostOps6 (Wv10 m c)

def pdats : (p : Fin 6) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr4 m) c
  | ⟨2, _⟩ => fun c => dat2 (Vr5 m) c
  | ⟨3, _⟩ => fun c => dat3 (Vr6 m) c
  | ⟨4, _⟩ => fun c => dat4 (Vr8 m) c
  | ⟨5, _⟩ => fun c => dat5 (Vr9 m) c
abbrev 𝒱r : Variants := Variants.none
abbrev Lr : GSem nD τ sig → Finset Unit := fun _ => ∅
abbrev lvr : GSem nD τ sig → Unit → ℕ := fun _ _ => 0
abbrev Rr (c : Dev nD) : sProp 𝕄 := iprop((∃ r, prngReg c r) ∗ ∃ W, owes (c : Thread nD τ) (0 : CellTallies nD τ sig Unit) W)

/-- A region as a segment between the buffers held at `V` and at `V'`, given their split into its arrays and the rest and the join back. -/
def regOf (p : Fin 6) (hw : Pipeline.WinFacts₀ (cfgs p).spec) (hb : ∀ w, 0 < ((cfgs p).spec w).block.numel)
    (hs : ∀ w s, (((cfgs p).spec w).stage s).IsWhole) (V V' : Dev nD → Valuation τ sig (Elt F))
    (hbody : ∀ c, BodyObligation (pdats m p c) (defs₀ (F := F)) 𝒱r () Set.univ)
    (howed : ∀ c t, (pdats m p c).owed t = 0) (hrec : ∀ c, (pdats m p c).recorded 0 = Set.univ)
    (hin : ∀ c, iprop((∃ r, prngReg c r) ∗ Pipeline.scopedRest (cfgs p).spec c) ⊢ (pdats m p c).Φ 0)
    (hout : ∀ c, (pdats m p c).Φ (Fin.last (cfgs p).N) ⊢ iprop((∃ r, prngReg c r) ∗ Pipeline.scopedRest (cfgs p).spec c))
    (hsplit : ∀ c : Dev nD, (StableHlo.held (c : Thread nD τ) (Pipeline.ucRefs τ sig) (V c) : sProp 𝕄)
      ⊢ iprop((pdats m p c).arrays ((pdats m p c).arrAt · 0) ∗ Pipeline.unscopedRest (cfgs p).spec c fun b => V c b))
    (hjoin : ∀ c : Dev nD, iprop((pdats m p c).arrays ((pdats m p c).arrAt · (cfgs p).N) ∗ Pipeline.unscopedRest (cfgs p).spec c fun b => V c b)
      ⊢ (StableHlo.held (c : Thread nD τ) (Pipeline.ucRefs τ sig) (V' c) : sProp 𝕄)) :
    Pipeline.RegionSeg (pcfgs (F := F)) adm (pdats m) () defs₀ 𝒱r Lr lvr p where
  win := hw
  block_pos := hb
  stage_whole := hs
  K := PEmpty
  osem k := k.elim
  ho := Pipeline.OwnSemFacts.none _
  hbody c := (hbody c).loose
  hwaits := Pipeline.hwaits_of_owed_zero _ _ _ _ Lr lvr p howed
  pre c := iprop(StableHlo.held (c : Thread nD τ) (Pipeline.ucRefs τ sig) (V c) ∗ Rr c)
  post c := iprop(StableHlo.held (c : Thread nD τ) (Pipeline.ucRefs τ sig) (V' c) ∗ Rr c)
  X c := iprop(∃ r, prngReg c r)
  Y c := iprop(∃ r, prngReg c r)
  Z c := Pipeline.unscopedRest (cfgs p).spec c fun b => V c b
  hentry c := by
    rw [Pipeline.ownSems0_none]
    unfold Pipeline.Dat.owesAt Pipeline.owesWithin Pipeline.prefHeld
    rw [howed, Finset.univ_eq_empty, BI.bigSep_empty]
    iintro ⟨⟨Hub, Hp, %W, HO⟩, -, -⟩
    ihave H := (hsplit c) $$ Hub
    icases H with ⟨Ha, Hrest⟩
    imodintro
    iframe Ha Hp Hrest
    isplitr; · iempintro
    iexists W; isplitr; · ipureintro; exact fun x _ => Or.inl (by rw [hrec]; trivial)
    iexact HO
  hin c := by
    refine .trans ?_ (hin c)
    iintro ⟨Hp, -, Hr⟩; iframe
  hout c := by
    refine .trans (hout c) ?_
    rw [Pipeline.ownSems0_none]
    iintro ⟨Hp, Hr⟩; iframe; iempintro
  hexit c := by
    unfold Pipeline.Dat.owesAt Pipeline.owesWithin
    rw [howed]
    iintro ⟨Ha, ⟨%W, -, HO⟩, HY, Hrest⟩
    imodintro
    isplitl [Ha Hrest]; · iapply hjoin c; iframe
    isplitl [HY]; · iexact HY
    iexists W; iexact HO

/-- A region whose windows read distinct whole arrays: the held buffers split into them and the rest, -/
theorem splitW {p : Fin 6} (L : Pipeline.LaunchFacts (nD := nD) (τ := τ) cfgs p) (V : Dev nD → Valuation τ sig (Elt F))
    (hq : ∀ c w, (pdats m p c).q w = fullShare) (hA : ∀ c w, (pdats m p c).A w = V c (Pipeline.arrRef (cfgs p).spec w)) (c : Dev nD) :
    (StableHlo.held (c : Thread nD τ) (Pipeline.ucRefs τ sig) (V c) : sProp 𝕄)
      ⊢ iprop((pdats m p c).arrays ((pdats m p c).arrAt · 0) ∗ Pipeline.unscopedRest (cfgs p).spec c fun b => V c b) := by
  rw [← Pipeline.unscopedBufs_held]
  exact Pipeline.arrays_of_unscopedBufs (pcfgs (F := F)) adm (pdats m) L.win L.arr_whole c ((pdats m p c).share_full (hq c)) _ (hA c)

/-- and join again at the valuation that has the arrays as the region leaves them. -/
theorem joinW {p : Fin 6} (L : Pipeline.LaunchFacts (nD := nD) (τ := τ) cfgs p) (V : Dev nD → Valuation τ sig (Elt F))
    (hq : ∀ c w, (pdats m p c).q w = fullShare) (c : Dev nD) :
    iprop((pdats m p c).arrays ((pdats m p c).arrAt · (cfgs p).N) ∗ Pipeline.unscopedRest (cfgs p).spec c fun b => V c b)
      ⊢ (StableHlo.held (c : Thread nD τ) (Pipeline.ucRefs τ sig)
          (Pipeline.withArrays (cfgs p).spec c (V c) fun w => (pdats m p c).arrAt w (cfgs p).N) : sProp 𝕄) := by
  rw [← Pipeline.unscopedBufs_held]
  exact Pipeline.unscopedBufs_of_arrays (pcfgs (F := F)) adm L.win L.arr_whole c (pdats m) ((pdats m p c).share_full (hq c)) _ _ _
    (fun w => (Pipeline.withArrays_arr (cfgs p).spec L.win.arr_inj c (V c) (fun w => (pdats m p c).arrAt w (cfgs p).N) w).symm)
    fun b hb => Pipeline.withArrays_of_ne (cfgs p).spec c (V c) _ b fun w e => hb (Finset.mem_image.mpr ⟨w, Finset.mem_univ _, e⟩)

/-- Such a region leaves every buffer that is no output array of it as entered. -/
theorem keepW {p : Fin 6} (L : Pipeline.LaunchFacts (nD := nD) (τ := τ) cfgs p) (c : Dev nD) (V : Valuation τ sig (Elt F))
    (hA : ∀ w, (pdats m p c).A w = V (Proc.devRef .tc (Pipeline.arrRef (cfgs p).spec w))) (b : Ref sig .tc)
    (h : ∀ w, Pipeline.arrRef (cfgs p).spec w = b → ((cfgs p).win w).isOut = false) :
    Pipeline.withArrays (cfgs p).spec c V (fun w => (pdats m p c).arrAt w (cfgs p).N) (Proc.devRef .tc b) = V (Proc.devRef .tc b) := by
  by_cases hb : ∃ w, Pipeline.arrRef (cfgs p).spec w = b
  · obtain ⟨w, rfl⟩ := hb
    exact (Pipeline.withArrays_arr _ L.win.arr_inj c _ _ w).trans (((pdats m p c).arrAt_in w (h w rfl) _).trans (hA w))
  · exact Pipeline.withArrays_of_ne _ c _ _ b fun w e => hb ⟨w, e⟩

/-- At the exit of a region with one output window `o`, each window's array is what the valuation updated at `o`'s array holds. -/
theorem arrAt_update {p : Fin 6} (c : Dev nD) (V : Valuation τ sig (Elt F)) (o : Fin (cfgs p).W)
    (hA : ∀ w, (pdats m p c).A w = V (Proc.devRef .tc (Pipeline.arrRef (cfgs p).spec w)))
    (ho : ∀ w, w ≠ o → ((cfgs p).win w).isOut = false ∧ Pipeline.arrRef (cfgs p).spec w ≠ Pipeline.arrRef (cfgs p).spec o) (w : Fin (cfgs p).W) :
    (pdats m p c).arrAt w (cfgs p).N
      = Function.update V (Proc.devRef .tc (Pipeline.arrRef (cfgs p).spec o)) ((pdats m p c).arrAt o (cfgs p).N) (Proc.devRef .tc (Pipeline.arrRef (cfgs p).spec w)) := by
  by_cases h : w = o
  · subst h; exact Eq.symm (Function.update_self ..)
  · exact (((pdats m p c).arrAt_in w (ho w h).1 _).trans (hA w)).trans (Eq.symm (Function.update_of_ne (StableHlo.devRef_ne_of_ne (ho w h).2) ..))

def reg0 :=
  regOf m 0 launch0.win.to₀ launch0.block_pos launch0.stage_whole (Wv0 m) (Wv1 m) (body_obligation0 (Vr0 m)) (fun _ _ => rfl) (fun _ => rfl)
    (hin0 (Vr0 m)) (hout0 (Vr0 m)) (splitW m launch0 (Wv0 m) (fun _ _ => rfl) fun _ _ => rfl) (joinW m launch0 (Wv0 m) fun _ _ => rfl)

def reg1 :=
  regOf m 1 launch1.win.to₀ launch1.block_pos launch1.stage_whole (Wv4 m) (Wv5 m) (body_obligation1 (Vr4 m)) (fun _ _ => rfl) (fun _ => rfl)
    (hin1 (Vr4 m)) (hout1 (Vr4 m)) (splitW m launch1 (Wv4 m) (fun _ _ => rfl) fun _ _ => rfl) (joinW m launch1 (Wv4 m) fun _ _ => rfl)

def reg2 :=
  regOf m 2 winFacts₀2 block_pos2 stage_whole2 (Wv5 m) (Wv6 m) (body_obligation2 (Vr5 m)) (fun _ _ => rfl) (fun _ => rfl) (hin2 (Vr5 m)) (hout2 (Vr5 m))
    (fun c => arrays_of_held2 c (pdats m 2 c) rfl rfl rfl rfl rfl (Wv5 m c) _ fun _ => rfl)
    fun c => held_of_arrays2 c (pdats m 2 c) rfl rfl rfl rfl rfl (Wv5 m c) (Wv6 m c) _ (arrAt_update m (p := 2) c (Wv5 m c) 5 (fun _ => rfl) (by decide))
      fun b hb => Function.update_of_ne (StableHlo.devRef_ne_of_ne fun e => hb (Finset.mem_image.mpr ⟨5, Finset.mem_univ _, e.symm⟩)) ..

def reg3 :=
  regOf m 3 winFacts₀3 block_pos3 stage_whole3 (Wv6 m) (Wv7 m) (body_obligation3 (Vr6 m)) (fun _ _ => rfl) (fun _ => rfl) (hin3 (Vr6 m)) (hout3 (Vr6 m))
    (fun c => arrays_of_held3 c (pdats m 3 c) rfl rfl rfl rfl rfl (Wv6 m c) _ fun _ => rfl)
    fun c => held_of_arrays3 c (pdats m 3 c) rfl rfl rfl rfl rfl (Wv6 m c) (Wv7 m c) _ (arrAt_update m (p := 3) c (Wv6 m c) 5 (fun _ => rfl) (by decide))
      fun b hb => Function.update_of_ne (StableHlo.devRef_ne_of_ne fun e => hb (Finset.mem_image.mpr ⟨5, Finset.mem_univ _, e.symm⟩)) ..

def reg4 :=
  regOf m 4 launch4.win.to₀ launch4.block_pos launch4.stage_whole (Wv8 m) (Wv9 m) (body_obligation4 (Vr8 m)) (fun _ _ => rfl) (fun _ => rfl)
    (hin4 (Vr8 m)) (hout4 (Vr8 m)) (splitW m launch4 (Wv8 m) (fun _ _ => rfl) fun _ _ => rfl) (joinW m launch4 (Wv8 m) fun _ _ => rfl)

def reg5 :=
  regOf m 5 launch5.win.to₀ launch5.block_pos launch5.stage_whole (Wv9 m) (Wv10 m) (body_obligation5 (Vr9 m)) (fun _ _ => rfl) (fun _ => rfl)
    (hin5 (Vr9 m)) (hout5 (Vr9 m)) (splitW m launch5 (Wv9 m) (fun _ _ => rfl) fun _ _ => rfl) (joinW m launch5 (Wv9 m) fun _ _ => rfl)

/-- A stretch of host operations as a segment from the buffers held at `V`. -/
def hostSeg (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op (List.forall_iff_forall_mem.mp hsub op h)) (List.forall_iff_forall_mem.mp hfresh) V Rr

abbrev segsR : List (Pipeline.Seg (pcfgs (F := F)) adm (pdats m) () defs₀ 𝒱r Lr lvr) :=
  [ .region (reg0 m), .host (hostSeg hostOps1 hostOps1_sub hostOps1_fresh (Wv1 m)), .host (hostSeg hostOps1_1 hostOps1_1_sub hostOps1_1_fresh (Wv2 m)),
    .host (hostSeg hostOps1_2 hostOps1_2_sub hostOps1_2_fresh (Wv3 m)), .region (reg1 m), .region (reg2 m), .region (reg3 m),
    .host (hostSeg hostOps4 hostOps4_sub hostOps4_fresh (Wv7 m)), .region (reg4 m), .region (reg5 m),
    .host (hostSeg hostOps6 hostOps6_sub hostOps6_fresh (Wv10 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = Wv11 m c b) :=
  Pipeline.θ_run_regions_kit (pcfgs (F := F)) adm (pdats m) () cellOf_inj emb₁ defs₀ 𝒱r Lr lvr m ρ main (segsR m)
    (fun c Q => by rw [main_chain c, Pipeline.Seg.run_eq_chain]; exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m c) ∗ Rr c))
    (Tₙ := fun c => StableHlo.held (c : Thread nD τ) (Pipeline.ucRefs τ sig) (Wv11 m c))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach Lr lvr fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv11 m c b)
    (hfin := fun c s' => by
      iintro ⟨Hh, HSI⟩
      unfold StableHlo.held
      imodintro
      iapply (pointsTo_read_all (Pipeline.ucRefs τ sig) (fun b => (((c : Thread nD τ)).1, b)) (Wv11 m c) s')
      iframe)
    (hQ := fun s h c => h c)

section Keeps
variable (c : Dev nD)

/-- No item up to the third host stretch writes `a`; nor do regions 1 to 3; nor does any later item. -/
abbrev Quiet4 (a : Ref sig .tc) : Prop :=
  (∀ w, Pipeline.arrRef spec0 w = a → (cfg0.win w).isOut = false) ∧ a ∉ hostOps1_W ∧ a ∉ hostOps1_1_W ∧ a ∉ hostOps1_2_W
abbrev Quiet7 (a : Ref sig .tc) : Prop := Quiet4 a ∧ (∀ w, Pipeline.arrRef spec1 w = a → (cfg1.win w).isOut = false) ∧ a ≠ main_v14 ∧ a ≠ main_v15
abbrev Quiet11 (a : Ref sig .tc) : Prop := Quiet7 a ∧ a ∉ hostOps4_W ∧ (∀ w, Pipeline.arrRef spec4 w = a → (cfg4.win w).isOut = false)
  ∧ (∀ w, Pipeline.arrRef spec5 w = a → (cfg5.win w).isOut = false) ∧ a ∉ hostOps6_W

/-- A buffer nothing has written so far holds its launch contents. -/
theorem arg_at4 (a : Ref sig .tc) (h : Quiet4 a) : Wv4 m c (Proc.devRef .tc a) = m ((c : Thread nD τ).loc a) :=
  (StableHlo.after_of_writes_sub hostOps1_2 _ hostOps1_2_writes h.2.2.2).trans <| (StableHlo.after_of_writes_sub hostOps1_1 _ hostOps1_1_writes h.2.2.1).trans <|
    (StableHlo.after_of_writes_sub hostOps1 _ hostOps1_writes h.2.1).trans (keepW m launch0 c (Wv0 m c) (fun _ => rfl) a h.1)
theorem arg_at7 (a : Ref sig .tc) (h : Quiet7 a) : Wv7 m c (Proc.devRef .tc a) = m ((c : Thread nD τ).loc a) :=
  (Function.update_of_ne (StableHlo.devRef_ne_of_ne h.2.2.2) ..).trans <| (Function.update_of_ne (StableHlo.devRef_ne_of_ne h.2.2.1) ..).trans <|
    (keepW m launch1 c (Wv4 m c) (fun _ => rfl) a h.2.1).trans (arg_at4 m c a h.1)
theorem arg_at11 (a : Ref sig .tc) (h : Quiet11 a) : Wv11 m c (Proc.devRef .tc a) = m ((c : Thread nD τ).loc a) :=
  (StableHlo.after_of_writes_sub hostOps6 _ hostOps6_writes h.2.2.2.2).trans <| (keepW m launch5 c (Wv9 m c) (fun _ => rfl) a h.2.2.2.1).trans <|
    (keepW m launch4 c (Wv8 m c) (fun _ => rfl) a h.2.2.1).trans <| (StableHlo.after_of_writes_sub hostOps4 _ hostOps4_writes h.2.1).trans (arg_at7 m c a h.1)

theorem arg1_at4 : Wv4 m c (Proc.devRef .tc main_arg1) = m ((c : Thread nD τ).loc main_arg1) := arg_at4 m c _ (by decide)
theorem arg1_at5 : Wv5 m c (Proc.devRef .tc main_arg1) = m ((c : Thread nD τ).loc main_arg1) :=
  (keepW m launch1 c (Wv4 m c) (fun _ => rfl) _ (by decide)).trans (arg1_at4 m c)
theorem v12_at5 : Wv5 m c (Proc.devRef .tc main_v12) = Wv4 m c (Proc.devRef .tc main_v12) := keepW m launch1 c (Wv4 m c) (fun _ => rfl) _ (by decide)
theorem v12_at6 : Wv6 m c (Proc.devRef .tc main_v12) = Wv4 m c (Proc.devRef .tc main_v12) :=
  (Function.update_of_ne (StableHlo.devRef_ne_of_ne (by decide)) ..).trans (v12_at5 m c)
theorem v13_at6 : Wv6 m c (Proc.devRef .tc main_v13) = Wv5 m c (Proc.devRef .tc main_v13) := Function.update_of_ne (StableHlo.devRef_ne_of_ne (by decide)) ..
theorem v14_at8 : Wv8 m c (Proc.devRef .tc main_v14) = Wv6 m c (Proc.devRef .tc main_v14) :=
  (StableHlo.after_of_writes_sub hostOps4 _ hostOps4_writes (by decide)).trans (Function.update_of_ne (StableHlo.devRef_ne_of_ne (by decide)) ..)
theorem v15_at9 : Wv9 m c (Proc.devRef .tc main_v15) = Wv7 m c (Proc.devRef .tc main_v15) :=
  (keepW m launch4 c (Wv8 m c) (fun _ => rfl) _ (by decide)).trans (StableHlo.after_of_writes_sub hostOps4 _ hostOps4_writes (by decide))
theorem v17_at9 : Wv9 m c (Proc.devRef .tc main_v17) = Wv8 m c (Proc.devRef .tc main_v17) := keepW m launch4 c (Wv8 m c) (fun _ => rfl) _ (by decide)
theorem v19_at9 : Wv9 m c (Proc.devRef .tc main_v19) = Wv8 m c (Proc.devRef .tc main_v19) := keepW m launch4 c (Wv8 m c) (fun _ => rfl) _ (by decide)
theorem v20_at10 : Wv10 m c (Proc.devRef .tc main_v20) = Wv9 m c (Proc.devRef .tc main_v20) := keepW m launch5 c (Wv9 m c) (fun _ => rfl) _ (by decide)
theorem arg0_at11 : Wv11 m c (Proc.devRef .tc main_arg0) = m ((c : Thread nD τ).loc main_arg0) := arg_at11 m c _ (by decide)
theorem arg1_at11 : Wv11 m c (Proc.devRef .tc main_arg1) = m ((c : Thread nD τ).loc main_arg1) := arg_at11 m c _ (by decide)
theorem arg2_at11 : Wv11 m c (Proc.devRef .tc main_arg2) = m ((c : Thread nD τ).loc main_arg2) := arg_at11 m c _ (by decide)
theorem arg3_at11 : Wv11 m c (Proc.devRef .tc main_arg3) = m ((c : Thread nD τ).loc main_arg3) := arg_at11 m c _ (by decide)
theorem arg4_at11 : Wv11 m c (Proc.devRef .tc main_arg4) = m ((c : Thread nD τ).loc main_arg4) := arg_at11 m c _ (by decide)
theorem arg5_at11 : Wv11 m c (Proc.devRef .tc main_arg5) = m ((c : Thread nD τ).loc main_arg5) := arg_at11 m c _ (by decide)
theorem arg0_at8 : Wv8 m c (Proc.devRef .tc main_arg0) = m ((c : Thread nD τ).loc main_arg0) :=
  (StableHlo.after_of_writes_sub hostOps4 _ hostOps4_writes (by decide)).trans (arg_at7 m c _ (by decide))
theorem arg0_at9 : Wv9 m c (Proc.devRef .tc main_arg0) = m ((c : Thread nD τ).loc main_arg0) :=
  (keepW m launch4 c (Wv8 m c) (fun _ => rfl) _ (by decide)).trans (arg0_at8 m c)
theorem arg2_at7 : Wv7 m c (Proc.devRef .tc main_arg2) = m ((c : Thread nD τ).loc main_arg2) := arg_at7 m c _ (by decide)
theorem arg3_at7 : Wv7 m c (Proc.devRef .tc main_arg3) = m ((c : Thread nD τ).loc main_arg3) := arg_at7 m c _ (by decide)
theorem arg4_at7 : Wv7 m c (Proc.devRef .tc main_arg4) = m ((c : Thread nD τ).loc main_arg4) := arg_at7 m c _ (by decide)
theorem arg5_at7 : Wv7 m c (Proc.devRef .tc main_arg5) = m ((c : Thread nD τ).loc main_arg5) := arg_at7 m c _ (by decide)

end Keeps

theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (arg0_at11 m c), (h c _ (mem_uc main_arg1 (by decide))).trans (arg1_at11 m c),
     (h c _ (mem_uc main_arg2 (by decide))).trans (arg2_at11 m c), (h c _ (mem_uc main_arg3 (by decide))).trans (arg3_at11 m c),
     (h c _ (mem_uc main_arg4 (by decide))).trans (arg4_at11 m c), (h c _ (mem_uc main_arg5 (by decide))).trans (arg5_at11 m c)⟩) (run_main m ρ)

end Cert.Kernel.Gen

end
-- ==== Proof.KI.R0.lean ====
import proofs.«106325_j17265768530288_1_alg».proof.Proof.Gen.KernelIdeal.Launch
import proofs.«106325_j17265768530288_1_alg».proof.Proof.Gen.KernelIdeal.Skeleton
import proofs.«106325_j17265768530288_1_alg».proof.Proof.Gen.KernelIdeal.Points
import proofs.«106325_j17265768530288_1_alg».proof.Proof.LibStore
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ab0 (c : Dev nD) (t : Fin cfg0.N) : Vec F S512x4096 .f32 := iblk0 V c 0 t

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

abbrev case0 (i : grid0.Coords) : Prop := cond0_0 i ∧ ¬cond0_1 i ∨ ¬cond0_0 i ∧ ¬cond0_1 i ∨ ¬cond0_0 i ∧ cond0_1 i

section Run
variable (c : Dev nD) (E : Set ℕ) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (x0 : Vec F S512x4096 .f32)

-- The body in its three control cases: the sums go onto zero at the first point and onto `xs` after it; the last point also stores them.
theorem run0 (h : case0 i) (xo xs : Vec F S8x4096 .f32)
    (K : PUnit → sProp 𝕄) :
    iprop(owns (c : Thread nD τ) arg1 fullShare x0 ∗ (∃ d, owns (c : Thread nD τ) arg2 fullShare d)
        ∗ owns (c : Thread nD τ) arg3 fullShare xo ∗ owns (c : Thread nD τ) arg4 fullShare xs
        ∗ (iprop(owns (c : Thread nD τ) arg1 fullShare x0 ∗ owns (c : Thread nD τ) arg2 fullShare (k0_pay2 i x0)
            ∗ owns (c : Thread nD τ) arg3 fullShare (if cond0_1 i then k0_pay4 i x0 (if cond0_0 i then k0_pay3 else xs) else xo)
            ∗ owns (c : Thread nD τ) arg4 fullShare (k0_pay4 i x0 (if cond0_0 i then k0_pay3 else xs))) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel owns
  iintro ⟨⟨%f0, %hf0, H0⟩, ⟨%d1, %f1, -, H1⟩, ⟨%f2, %hf2, H2⟩, ⟨%fs, %hfs, HS⟩, Hk⟩
  subst hf0 hf2 hfs
  rcases h with ⟨hc0, hc1⟩ | ⟨hc0, hc1⟩ | ⟨hc0, hc1⟩ <;>
  · first | rw [if_pos hc0] | rw [if_neg hc0]
    first | rw [if_pos hc1] | rw [if_neg hc1]
    sl_exec (disch := first | exact hc0 | exact hc1)
    sl_step
    iapply Hk
    isplitl [H0]; rotate_left; isplitl [H1]; rotate_left; isplitl [H2]; rotate_left
    all_goals
      iexists _; iframe; ipureintro
      try sl_unfold_words
      try rw [Cert.Hand.read_writes_unit _ _ Cert.Hand.off2_zero]
      simp only [View.readAt_eq_ld, View.ld_unit_zero (S := S8x4096) Cert.Hand.off2_zero, View.ld_unit_zero (S := S512x4096) Cert.Hand.off2_zero,
        View.readCov_unit_zero (S := S8x4096) _ Cert.Hand.off2_zero]

end Run

theorem hcond0_0 : ∀ t : Fin cfg0.N, cond0_0 (grid0.coords t) ↔ t.val = 0 :=
  (by decide +kernel : ∀ t : Fin grid0.N, cond0_0 (grid0.coords t) ↔ t.val = 0)

theorem hcase0 : ∀ t : Fin cfg0.N, case0 (grid0.coords t) := (by decide +kernel : ∀ t : Fin grid0.N, _)

theorem idle0_2 : ∀ t : Fin cfg0.N, (cond0_1 (grid0.coords t) → cfg0.idle 2 (grid0.coords t) = false)
    ∧ (¬cond0_1 (grid0.coords t) → cfg0.idle 2 (grid0.coords t) = true ∧ (cfg0.win 2).flush t = false) := by decide +kernel

abbrev scM0 : Memref sig .tc .vmem S8x4096 .f32 := Memref.whole cc0_scratch0

def acc0 (c : Dev nD) : (n : ℕ) → n < cfg0.N → Vec F S8x4096 .f32
  | 0, hn => k0_pay4 (grid0.coords ⟨0, hn⟩) (ab0 V c ⟨0, hn⟩) (k0_pay3 (F := F))
  | n + 1, hn => k0_pay4 (grid0.coords ⟨n + 1, hn⟩) (ab0 V c ⟨n + 1, hn⟩) (acc0 c n (Nat.lt_of_succ_lt hn))

-- One step of the accumulator, from whatever the point before left (from zero at the first point).
theorem acc0_eq (c : Dev nD) (t : Fin cfg0.N) (x : Vec F S8x4096 .f32) (hx : ∀ h : t.val ≠ 0, x = acc0 V c (t.val - 1) (by omega)) :
    k0_pay4 (grid0.coords t) (iblk0 V c 0 t) (if cond0_0 (grid0.coords t) then k0_pay3 else x) = acc0 V c t.val t.isLt := by
  obtain ⟨_ | n, hn⟩ := t
  · rw [if_pos ((hcond0_0 ⟨0, hn⟩).mpr rfl)]; rfl
  · rw [if_neg fun h => Nat.succ_ne_zero n ((hcond0_0 ⟨n + 1, hn⟩).mp h), hx (Nat.succ_ne_zero n)]; rfl

def Phi0 (c : Dev nD) (n : ℕ) (hn : n ≤ cfg0.N) : sProp 𝕄 :=
  iprop((∃ x, ⌜∀ h : n ≠ 0, x = acc0 V c (n - 1) (by omega)⌝ ∗ owns (c : Thread nD τ) scM0 fullShare x)
    ∗ Pipeline.scopedRestBut (Ix := Unit) (Name := ℕ) (U := UR sig nD τ) (Lvl := ℕ) (Val := Elt F) spec0 c [cc0_scratch0]
    ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (grid0.coords t) (ab0 V c t)
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = k0_pay2 (grid0.coords t) (ab0 V c t) := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  (dat0 V c).before_fetched 0 t (fetch0_0 t) d

-- What the body leaves in the third window, by cases on the last point's condition.
theorem leaves0_2 (c : Dev nD) (t : Fin cfg0.N) (d) :
    owns (c : Thread nD τ) (st0_2 t) fullShare (if cond0_1 (grid0.coords t) then acc0 V c t.val t.isLt else (dat0 V c).before 2 t d)
      ⊢ (dat0 V c).leavesExact 2 t := by
  by_cases h : cond0_1 (grid0.coords t)
  · rw [if_pos h]; unfold Dat.leavesExact; rw [(idle0_2 t).1 h, after0_2]
  · rw [if_neg h, Dat.leavesExact_idle _ 2 t ((idle0_2 t).2 h).1 ((idle0_2 t).2 h).2]; iintro H; iexists d; iexact H

theorem body_obligation0 (c : Dev nD) : BodyObligation (dat0 (F := F) V c) (defs₀ (F := F)) Variants.none () Set.univ := fun t => by
  rw [bigSep_W0, bigSep_W0]
  change iprop(Phi0 V c t.val (Nat.le_of_lt t.isLt) ∗ _) ⊢ wp _ _ _ (bodyAt0 t) fun _ =>
    iprop(Phi0 V c (t.val + 1) t.isLt ∗ (dat0 V c).owesAt () t.castSucc ∗ owns (c : Thread nD τ) (st0_0 t) fullShare (iblk0 V c 0 t)
      ∗ owns (c : Thread nD τ) (st0_1 t) fullShare (k0_pay2 (grid0.coords t) (iblk0 V c 0 t)) ∗ (dat0 V c).leavesExact 2 t)
  simp only [before0_0]
  unfold Phi0
  iintro ⟨⟨⟨%x, %hx, HS⟩, HR, Hg⟩, Ho, ⟨%d0, H0⟩, ⟨%d1, H1⟩, ⟨%d2, H2⟩⟩
  iapply (run0 c Set.univ (grid0.coords t) _ _ _ _ _ _ _ _ (iblk0 V c 0 t) (hcase0 t) ((dat0 V c).before 2 t d2) x _)
  iframe H0 H2 HS
  isplitl [H1]; · iexists _; iexact H1
  iintro ⟨H0, H1, H2, HS⟩
  rw [acc0_eq V c t x hx]
  iframe HR Hg Ho H0 H1
  isplitl [HS]
  · iexists _; iframe HS; ipureintro; intro _; rfl
  iapply (leaves0_2 V c t d2); iexact H2

theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [scopedRest0_split]; simp only [dat0, Phi0, scM0, owns_whole]
  iintro ⟨Hg, ⟨%f, HS⟩, HR⟩
  iframe HR Hg; iexists f; iframe HS; ipureintro; intro h; exact absurd rfl h

theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [scopedRest0_split]; simp only [dat0, Phi0, scM0, owns_whole]
  iintro ⟨⟨%x, -, HS⟩, HR, Hg⟩
  iframe Hg HR; iexists x; iexact HS

end Cert.KernelIdeal.Gen

end
-- ==== Proof.KI.R1.lean ====
import proofs.«106325_j17265768530288_1_alg».proof.Proof.Gen.KernelIdeal.Launch
import proofs.«106325_j17265768530288_1_alg».proof.Proof.Gen.KernelIdeal.Skeleton
import proofs.«106325_j17265768530288_1_alg».proof.Proof.Gen.KernelIdeal.Points
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x1024 := Rect.unit (s := S1024x1024) ![0, 0] S1024x1024.size inb_S1024x1024_S1024x1024_0_0

def out1_1 (x0 : Vec F S1024x1024 .f32) : Vec F S1024x1024 .bf16 :=
  View.canon [⟨r1_0, k1_pay1 (View.ld x0 r1_0)⟩]

theorem sound_kernel1 (c : Dev nD) (E : Set ℕ) (i : grid1.Coords) (arg2 : Memref sig .tc .vmem S1024x1024 .f32) (harg2 : arg2.IsWhole) (arg3 : Memref sig .tc .vmem S1024x1024 .bf16) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__transpose_kernel i arg2 harg2 arg3 harg3) K := by
  simp only [cc1__transpose_kernel_eq_skeleton]; unfold cc1__transpose_kernel_skel owns
  iintro ⟨⟨%f0, %hf0, H0⟩, ⟨%d1, %f1, -, H1⟩, Hk⟩
  subst hf0
  sl_exec
  sl_step
  iapply Hk
  isplitl [H0]
  · iexists f0; iframe H0; ipureintro; rfl
  iexists _; iframe H1; ipureintro
  exact View.read_writes_eq_canon _ _ _ fun y => View.cover_of_tiled [⟨_, _⟩] S1024x1024.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  (dat1 V c).before_fetched 0 t (fetch1_0 t) d

theorem body_obligation1 (c : Dev nD) : BodyObligation (dat1 (F := F) V c) (defs₀ (F := F)) Variants.none () Set.univ := fun t => by
  rw [bigSep_W1, bigSep_W1]
  simp only [before1_0]
  simp only [dat1]
  change _ ⊢ wp _ _ _ (bodyAt1 t) _
  iintro ⟨HΦ, Ho, ⟨%d0, H0⟩, ⟨%d1, H1⟩⟩
  iapply (sound_kernel1 c Set.univ (grid1.coords t) _ _ _ _ (iblk1 V c 0 t) _)
  iframe H0
  isplitl [H1]; · iexists _; iexact H1
  iintro ⟨H0, H1⟩
  iframe HΦ H0 H1
  iexact Ho

theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 :=
  sep_comm.1

theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) :=
  sep_comm.1

end Cert.KernelIdeal.Gen

end
-- ==== Proof.KI.R2.lean ====
import proofs.«106325_j17265768530288_1_alg».proof.Proof.Gen.KernelIdeal.Launch
import proofs.«106325_j17265768530288_1_alg».proof.Proof.Gen.KernelIdeal.Skeleton
import proofs.«106325_j17265768530288_1_alg».proof.Proof.Gen.KernelIdeal.Points
import proofs.«106325_j17265768530288_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev lb2 (c : Dev nD) (t : Fin cfg2.N) : Vec F S1024x1024 .f32 := iblk2 V c 0 t
abbrev rb2 (c : Dev nD) (t : Fin cfg2.N) : Vec F S1024x1024 .f32 := iblk2 V c 1 t
abbrev db2 (c : Dev nD) (t : Fin cfg2.N) : Vec F S1024x1024 .f32 := iblk2 V c 2 t
abbrev di2 (c : Dev nD) (t : Fin cfg2.N) : Vec F S1024x128 .f32 := iblk2 V c 3 t
abbrev dk2 (c : Dev nD) (t : Fin cfg2.N) : Vec F S1024x128 .f32 := iblk2 V c 4 t

abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1
theorem hcond2_0 : ∀ t : Fin cfg2.N, cond2_0 (grid2.coords t) ↔ t.val % 4 = 0 := by decide +kernel
theorem excl2 : ∀ t : Fin cfg2.N, cond2_0 (grid2.coords t) → ¬cond2_1 (grid2.coords t) := by decide +kernel

theorem liveAt2 : ∀ (w : Fin cfg2.W) (t : Fin cfg2.N), w ≠ 5 → cfg2.idle w (grid2.coords t) = false := by decide +kernel
theorem idle2_5 : ∀ t : Fin cfg2.N, if cond2_1 (grid2.coords t) then cfg2.idle 5 (grid2.coords t) = false else cfg2.idle 5 (grid2.coords t) = true ∧ (cfg2.win 5).flush t = false := by
  decide +kernel

section Runs
variable (c : Dev nD) (E : Set ℕ) (i : grid2.Coords)
    (arg3 arg4 arg5 : Memref sig .tc .vmem S1024x1024 .f32) (arg6 arg7 : Memref sig .tc .vmem S1024x128 .f32) (arg8 : Memref sig .tc .vmem S1024x1024 .bf16)
    (arg9 : Memref sig .tc .vmem S1024x1024 .f32) (harg3 : arg3.IsWhole) (harg4 : arg4.IsWhole) (harg5 : arg5.IsWhole) (harg6 : arg6.IsWhole) (harg7 : arg7.IsWhole)
    (harg8 : arg8.IsWhole) (harg9 : arg9.IsWhole) (x0 x1 x2 : Vec F S1024x1024 .f32) (x3 x4 : Vec F S1024x128 .f32)

set_option maxHeartbeats 1000000 in
-- One point of the body: the accumulator (zero first when k = 0) gains the product; at k = 3 the output takes the blend.
theorem run2 (xo : Vec F S1024x1024 .bf16) (xs a : Vec F S1024x1024 .f32)
    (ha : a = k2_pay1 (k2_pay5 i x0 x3) (k2_pay6 i x1 x4) (if cond2_0 i then k2_pay3 (F := F) else xs)) (hx : cond2_0 i → ¬cond2_1 i) (K : PUnit → sProp 𝕄) :
    iprop((iprop(ownsTc c arg8 fullShare (if cond2_1 i then k2_pay2 (Scalar.muli (BitVec.ofNat 32 (i 0).val) 1024#32) (Scalar.muli (BitVec.ofNat 32 (i 1).val) 1024#32) (k2_pay4 x3) x2 a else xo)
            ∗ ownsTc c arg9 fullShare a ∗ ownsTc c arg3 fullShare x0 ∗ ownsTc c arg4 fullShare x1 ∗ ownsTc c arg5 fullShare x2
            ∗ ownsTc c arg6 fullShare x3 ∗ ownsTc c arg7 fullShare x4) -∗ K ⟨⟩)
        ∗ ownsTc c arg8 fullShare xo ∗ ownsTc c arg9 fullShare xs ∗ ownsTc c arg3 fullShare x0 ∗ ownsTc c arg4 fullShare x1
        ∗ ownsTc c arg5 fullShare x2 ∗ ownsTc c arg6 fullShare x3 ∗ ownsTc c arg7 fullShare x4)
      ⊢ wp frame (wpE (defs₀ (F := F)) Variants.none c none) E (cc2__diffuse_kernel i arg3 harg3 arg4 harg4 arg5 harg5 arg6 harg6 arg7 harg7 arg8 harg8 arg9 harg9) K := by
  subst ha
  rcases Classical.propComplete (cond2_0 i) with e0 | e0 <;> rcases Classical.propComplete (cond2_1 i) with e1 | e1 <;>
  first
  | exact absurd (of_eq_true e1) (hx (of_eq_true e0))
  | simp only [e0, e1, if_true, if_false]
    simp only [cc2__diffuse_kernel_eq_skeleton]; unfold cc2__diffuse_kernel_skel
    simp only [k2_part1_eq_skeleton]; unfold k2_part1_skel
    unfold ownsTc owns
    iintro ⟨Hk, ⟨%f5, %hf5, H5⟩, ⟨%fs, %hfs, HS⟩, ⟨%f0, %hf0, H0⟩, ⟨%f1, %hf1, H1⟩, ⟨%f2, %hf2, H2⟩, ⟨%f3, %hf3, H3⟩, ⟨%f4, %hf4, H4⟩⟩
    subst_vars
    sl_exec (disch := first | exact of_eq_true e0 | exact of_eq_false e0 | exact of_eq_true e1 | exact of_eq_false e1)
    sl_step
    iapply Hk
    isplitl [H5]; rotate_left; isplitl [HS]; rotate_left; sl_close
    all_goals
      iexists _; iframe; ipureintro; sl_unfold_words
      simp only [read_writes_unit (S := S1024x1024) _ _ off2_zero, View.readAt_eq_ld, View.ld_unit_zero (S := S1024x1024) off2_zero, View.ld_unit_zero (S := S1024x128) off2_zero,
        View.readCov_unit_zero (S := S1024x1024) _ off2_zero]

end Runs

def acc2 (c : Dev nD) : (n : ℕ) → n < cfg2.N → Vec F S1024x1024 .f32
  | 0, hn => k2_pay1 (k2_pay5 (grid2.coords ⟨0, hn⟩) (lb2 V c ⟨0, hn⟩) (di2 V c ⟨0, hn⟩)) (k2_pay6 (grid2.coords ⟨0, hn⟩) (rb2 V c ⟨0, hn⟩) (dk2 V c ⟨0, hn⟩)) (k2_pay3 (F := F))
  | n + 1, hn =>
    k2_pay1 (k2_pay5 (grid2.coords ⟨n + 1, hn⟩) (lb2 V c ⟨n + 1, hn⟩) (di2 V c ⟨n + 1, hn⟩)) (k2_pay6 (grid2.coords ⟨n + 1, hn⟩) (rb2 V c ⟨n + 1, hn⟩) (dk2 V c ⟨n + 1, hn⟩))
      (if (n + 1) % 4 = 0 then k2_pay3 (F := F) else acc2 c n (Nat.lt_of_succ_lt hn))

theorem acc2_first (c : Dev nD) (t : Fin cfg2.N) (h0 : t.val % 4 = 0) :
    acc2 V c t.val t.isLt = k2_pay1 (k2_pay5 (grid2.coords t) (lb2 V c t) (di2 V c t)) (k2_pay6 (grid2.coords t) (rb2 V c t) (dk2 V c t)) (k2_pay3 (F := F)) := by
  obtain ⟨n, hn⟩ := t
  cases n with
  | zero => rfl
  | succ n => exact congrArg (k2_pay1 _ _) (if_pos h0)

theorem acc2_next (c : Dev nD) (t : Fin cfg2.N) (h0 : ¬t.val % 4 = 0) :
    acc2 V c t.val t.isLt = k2_pay1 (k2_pay5 (grid2.coords t) (lb2 V c t) (di2 V c t)) (k2_pay6 (grid2.coords t) (rb2 V c t) (dk2 V c t))
      (acc2 V c (t.val - 1) (Nat.lt_of_le_of_lt (Nat.sub_le _ _) t.isLt)) := by
  obtain ⟨n, hn⟩ := t
  cases n with
  | zero => exact absurd (Nat.zero_mod _) h0
  | succ n => exact congrArg (k2_pay1 _ _) (if_neg h0)

-- One step of the recursion for the accumulator, both cases at once.
theorem acc2_step (c : Dev nD) (t : Fin cfg2.N) (xs : Vec F S1024x1024 .f32) (hxs : ∀ h : t.val ≠ 0, xs = acc2 V c (t.val - 1) (Nat.lt_of_le_of_lt (Nat.sub_le _ _) t.isLt)) :
    acc2 V c t.val t.isLt = k2_pay1 (k2_pay5 (grid2.coords t) (lb2 V c t) (di2 V c t)) (k2_pay6 (grid2.coords t) (rb2 V c t) (dk2 V c t))
      (if cond2_0 (grid2.coords t) then k2_pay3 (F := F) else xs) := by
  by_cases h0 : t.val % 4 = 0
  · rw [if_pos ((hcond2_0 t).mpr h0), acc2_first V c t h0]
  · rw [if_neg (mt (hcond2_0 t).mp h0), acc2_next V c t h0, hxs fun e => h0 (by rw [e])]

def Phi2 (c : Dev nD) (n : ℕ) (hn : n ≤ cfg2.N) : sProp 𝕄 :=
  iprop((∃ x, ⌜∀ h : n ≠ 0, x = acc2 V c (n - 1) (by omega)⌝ ∗ ownsTc c (Memref.whole cc2_scratch0) fullShare x)
    ∗ Pipeline.scopedRestBut (Ix := Unit) (Name := ℕ) (U := UR sig nD τ) (Lvl := ℕ) (Val := Elt F) spec2 c [cc2_scratch0]
    ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay2 (Scalar.muli (BitVec.ofNat 32 ((grid2.coords t) 0).val) 1024#32) (Scalar.muli (BitVec.ofNat 32 ((grid2.coords t) 1).val) 1024#32)
        (k2_pay4 (di2 V c t)) (db2 V c t) (acc2 V c t.val t.isLt)
  Φ t := Phi2 V c t.val (Nat.le_of_lt_succ t.isLt)
  q := fun
    | 0 => fullShare.left
    | 1 => fullShare.right.left
    | 2 => fullShare.right.right
    | 3 => fullShare.left
    | 4 => fullShare.right
    | 5 => fullShare
    | ⟨_ + 6, h⟩ => absurd h (Nat.not_lt.2 (Nat.le_add_left _ _))
  owed _ := 0

theorem A_eq2 (c : Dev nD) (w : Fin cfg2.W) : (dat2 V c).A w = V c (Pipeline.arrRef spec2 w) := rfl

theorem after2_5 (c : Dev nD) (t : Fin cfg2.N) : (dat2 V c).after 5 t =
    k2_pay2 (Scalar.muli (BitVec.ofNat 32 ((grid2.coords t) 0).val) 1024#32) (Scalar.muli (BitVec.ofNat 32 ((grid2.coords t) 1).val) 1024#32)
      (k2_pay4 (di2 V c t)) (db2 V c t) (acc2 V c t.val t.isLt) := by dsimp only [dat2]

-- No input is written: what is found of it is what is left of it.
theorem before2 (c : Dev nD) : ∀ w : Fin cfg2.W, w ≠ 5 → ∀ t d, (dat2 V c).before w t d = (dat2 V c).after w t
  | ⟨0, _⟩, _ | ⟨1, _⟩, _ | ⟨2, _⟩, _ | ⟨3, _⟩, _ | ⟨4, _⟩, _ => fun t d =>
    (dat2 V c).before_in_eq_fetched _ rfl (fun _ => rfl) (fun _ _ _ => rfl) (fun _ => rfl) t d
  | ⟨5, _⟩, h => absurd rfl h

theorem leaves2 (c : Dev nD) (w : Fin cfg2.W) (hw : w ≠ 5) (t : Fin cfg2.N) :
    (dat2 V c).leavesExact w t = ownsTc c ((cfg2.win w).stage (cfg2.slots t w)) fullShare ((dat2 V c).after w t) := by
  unfold Dat.leavesExact; rw [liveAt2 w t hw]

-- The output window leaves the blend at k = 3 and what it found at every other point.
theorem leaves2_5 (c : Dev nD) (t : Fin cfg2.N) (d) :
    ownsTc c (st2_5 t) fullShare (if cond2_1 (grid2.coords t) then (dat2 V c).after 5 t else (dat2 V c).before 5 t d) ⊢ (dat2 V c).leavesExact 5 t := by
  have hi := idle2_5 t
  by_cases h : cond2_1 (grid2.coords t)
  · rw [if_pos h] at hi ⊢; unfold Dat.leavesExact; rw [hi]
  · rw [if_neg h] at hi ⊢; rw [Dat.leavesExact_idle _ 5 t hi.1 hi.2]; iintro H; iexists d; iexact H

theorem sound_body2 (c : Dev nD) (t : Fin cfg2.N) :
    iprop(Phi2 V c t.val (Nat.le_of_lt t.isLt) ∗ (dat2 V c).owesAt () t.castSucc
        ∗ bigSep Finset.univ fun w => iprop(∃ d, ownsTc c ((cfg2.win w).stage (cfg2.slots t w)) fullShare ((dat2 V c).before w t d)))
      ⊢ wp frame (wpE (defs₀ (F := F)) Variants.none c none) Set.univ (bodyAt2 t) fun _ =>
        iprop(Phi2 V c (t.val + 1) t.isLt ∗ (dat2 V c).owesAt () t.castSucc ∗ bigSep Finset.univ fun w => (dat2 V c).leavesExact w t) := by
  rw [bigSep_W2, bigSep_W2]
  simp (disch := decide) only [before2 V c, leaves2 V c]
  unfold Phi2
  iintro ⟨⟨⟨%xs, %hxs, HS⟩, HR, Hg⟩, Ho, ⟨%d0, H0⟩, ⟨%d1, H1⟩, ⟨%d2, H2⟩, ⟨%d3, H3⟩, ⟨%d4, H4⟩, ⟨%d5, H5⟩⟩
  iapply (run2 c Set.univ (grid2.coords t) _ _ _ _ _ _ _ _ _ _ _ _ _ _ _ _ _ _ _ ((dat2 V c).before 5 t d5) _ _ (acc2_step V c t xs hxs) (excl2 t) _)
  isplitl [HR Hg Ho]; swap; · sl_close
  iintro ⟨H5, HS, H0, H1, H2, H3, H4⟩
  ihave H5 := (leaves2_5 V c t d5) $$ [H5]
  · iexact H5
  iframe HR Hg Ho
  isplitl [HS]
  · iexists _; iframe; ipureintro; exact fun _ => rfl
  sl_close

theorem body_obligation2 (c : Dev nD) : BodyObligation (dat2 (F := F) V c) (defs₀ (F := F)) Variants.none () Set.univ := sound_body2 V c

theorem hin2 (c : Dev nD) :
    iprop((∃ r, prngReg c r) ∗ Pipeline.scopedRest (Ix := Unit) (Name := ℕ) (U := UR sig nD τ) (Lvl := ℕ) (Val := Elt F) spec2 c) ⊢ (dat2 V c).Φ 0 := by
  change _ ⊢ Phi2 V c 0 (Nat.zero_le _)
  rw [scopedRest2_split]; unfold Phi2
  simp only [ownsTc, owns_whole]
  iintro ⟨Hg, ⟨%f, HS⟩, HR⟩
  iframe Hg HR
  iexists f; isplitr; · ipureintro; exact fun h => absurd rfl h
  iexact HS

theorem hout2 (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) := by
  change Phi2 V c cfg2.N (Nat.le_refl _) ⊢ _
  rw [scopedRest2_split]; unfold Phi2
  simp only [ownsTc, owns_whole]
  iintro ⟨⟨%x, -, HS⟩, HR, Hg⟩
  iframe Hg HR
  iexists x; iexact HS

end Cert.KernelIdeal.Gen

end
-- ==== Proof.KI.R3.lean ====
import proofs.«106325_j17265768530288_1_alg».proof.Proof.Gen.KernelIdeal.Launch
import proofs.«106325_j17265768530288_1_alg».proof.Proof.Gen.KernelIdeal.Skeleton
import proofs.«106325_j17265768530288_1_alg».proof.Proof.Gen.KernelIdeal.Points
import proofs.«106325_j17265768530288_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev lb3 (c : Dev nD) (t : Fin cfg3.N) : Vec F S1024x1024 .bf16 := iblk3 V c 0 t
abbrev rb3 (c : Dev nD) (t : Fin cfg3.N) : Vec F S1024x1024 .bf16 := iblk3 V c 1 t
abbrev db3 (c : Dev nD) (t : Fin cfg3.N) : Vec F S1024x1024 .bf16 := iblk3 V c 2 t
abbrev di3 (c : Dev nD) (t : Fin cfg3.N) : Vec F S1024x128 .f32 := iblk3 V c 3 t
abbrev dk3 (c : Dev nD) (t : Fin cfg3.N) : Vec F S1024x128 .f32 := iblk3 V c 4 t

abbrev cond3_0 (i : grid3.Coords) : Prop := (Scalar.cmpi .ne (Scalar.extui (Scalar.cmpi .eq (BitVec.ofNat 32 (i 2).val) 0#32)) 0#32) = 1#1
abbrev cond3_1 (i : grid3.Coords) : Prop := k3_cond2 i = 1#1
theorem hcond3_0 : ∀ t : Fin cfg3.N, cond3_0 (grid3.coords t) ↔ t.val % 4 = 0 := by decide +kernel
theorem excl3 : ∀ t : Fin cfg3.N, cond3_0 (grid3.coords t) → ¬cond3_1 (grid3.coords t) := by decide +kernel

theorem liveAt3 : ∀ (w : Fin cfg3.W) (t : Fin cfg3.N), w ≠ 5 → cfg3.idle w (grid3.coords t) = false := by decide +kernel
theorem idle3_5 : ∀ t : Fin cfg3.N, if cond3_1 (grid3.coords t) then cfg3.idle 5 (grid3.coords t) = false else cfg3.idle 5 (grid3.coords t) = true ∧ (cfg3.win 5).flush t = false := by
  decide +kernel

section Runs
variable (c : Dev nD) (E : Set ℕ) (i : grid3.Coords)
    (arg3 arg4 arg5 : Memref sig .tc .vmem S1024x1024 .bf16) (arg6 arg7 : Memref sig .tc .vmem S1024x128 .f32) (arg8 : Memref sig .tc .vmem S1024x1024 .bf16)
    (arg9 : Memref sig .tc .vmem S1024x1024 .f32) (harg3 : arg3.IsWhole) (harg4 : arg4.IsWhole) (harg5 : arg5.IsWhole) (harg6 : arg6.IsWhole) (harg7 : arg7.IsWhole)
    (harg8 : arg8.IsWhole) (harg9 : arg9.IsWhole) (x0 x1 x2 : Vec F S1024x1024 .bf16) (x3 x4 : Vec F S1024x128 .f32)

set_option maxHeartbeats 1000000 in
-- One point of the body: the accumulator (zero first when k = 0) gains the product; at k = 3 the output takes the blend.
theorem run3 (xo : Vec F S1024x1024 .bf16) (xs a : Vec F S1024x1024 .f32)
    (ha : a = k3_pay1 (k3_pay5 i x0 x3) (k3_pay6 i x1 x4) (if cond3_0 i then k3_pay3 (F := F) else xs)) (hx : cond3_0 i → ¬cond3_1 i) (K : PUnit → sProp 𝕄) :
    iprop((iprop(ownsTc c arg8 fullShare (if cond3_1 i then k3_pay2 (Scalar.muli (BitVec.ofNat 32 (i 0).val) 1024#32) (Scalar.muli (BitVec.ofNat 32 (i 1).val) 1024#32) (k3_pay4 x3) x2 a else xo)
            ∗ ownsTc c arg9 fullShare a ∗ ownsTc c arg3 fullShare x0 ∗ ownsTc c arg4 fullShare x1 ∗ ownsTc c arg5 fullShare x2
            ∗ ownsTc c arg6 fullShare x3 ∗ ownsTc c arg7 fullShare x4) -∗ K ⟨⟩)
        ∗ ownsTc c arg8 fullShare xo ∗ ownsTc c arg9 fullShare xs ∗ ownsTc c arg3 fullShare x0 ∗ ownsTc c arg4 fullShare x1
        ∗ ownsTc c arg5 fullShare x2 ∗ ownsTc c arg6 fullShare x3 ∗ ownsTc c arg7 fullShare x4)
      ⊢ wp frame (wpE (defs₀ (F := F)) Variants.none c none) E (cc3__diffuse_kernel i arg3 harg3 arg4 harg4 arg5 harg5 arg6 harg6 arg7 harg7 arg8 harg8 arg9 harg9) K := by
  subst ha
  rcases Classical.propComplete (cond3_0 i) with e0 | e0 <;> rcases Classical.propComplete (cond3_1 i) with e1 | e1 <;>
  first
  | exact absurd (of_eq_true e1) (hx (of_eq_true e0))
  | simp only [e0, e1, if_true, if_false]
    simp only [cc3__diffuse_kernel_eq_skeleton]; unfold cc3__diffuse_kernel_skel
    simp only [k3_part1_eq_skeleton]; unfold k3_part1_skel
    unfold ownsTc owns
    iintro ⟨Hk, ⟨%f5, %hf5, H5⟩, ⟨%fs, %hfs, HS⟩, ⟨%f0, %hf0, H0⟩, ⟨%f1, %hf1, H1⟩, ⟨%f2, %hf2, H2⟩, ⟨%f3, %hf3, H3⟩, ⟨%f4, %hf4, H4⟩⟩
    subst_vars
    sl_exec (disch := first | exact of_eq_true e0 | exact of_eq_false e0 | exact of_eq_true e1 | exact of_eq_false e1)
    sl_step
    iapply Hk
    isplitl [H5]; rotate_left; isplitl [HS]; rotate_left; sl_close
    all_goals
      iexists _; iframe; ipureintro; sl_unfold_words
      simp only [read_writes_unit (S := S1024x1024) _ _ off2_zero, View.readAt_eq_ld, View.ld_unit_zero (S := S1024x1024) off2_zero, View.ld_unit_zero (S := S1024x128) off2_zero,
        View.readCov_unit_zero (S := S1024x1024) _ off2_zero]

end Runs

def acc3 (c : Dev nD) : (n : ℕ) → n < cfg3.N → Vec F S1024x1024 .f32
  | 0, hn => k3_pay1 (k3_pay5 (grid3.coords ⟨0, hn⟩) (lb3 V c ⟨0, hn⟩) (di3 V c ⟨0, hn⟩)) (k3_pay6 (grid3.coords ⟨0, hn⟩) (rb3 V c ⟨0, hn⟩) (dk3 V c ⟨0, hn⟩)) (k3_pay3 (F := F))
  | n + 1, hn =>
    k3_pay1 (k3_pay5 (grid3.coords ⟨n + 1, hn⟩) (lb3 V c ⟨n + 1, hn⟩) (di3 V c ⟨n + 1, hn⟩)) (k3_pay6 (grid3.coords ⟨n + 1, hn⟩) (rb3 V c ⟨n + 1, hn⟩) (dk3 V c ⟨n + 1, hn⟩))
      (if (n + 1) % 4 = 0 then k3_pay3 (F := F) else acc3 c n (Nat.lt_of_succ_lt hn))

theorem acc3_first (c : Dev nD) (t : Fin cfg3.N) (h0 : t.val % 4 = 0) :
    acc3 V c t.val t.isLt = k3_pay1 (k3_pay5 (grid3.coords t) (lb3 V c t) (di3 V c t)) (k3_pay6 (grid3.coords t) (rb3 V c t) (dk3 V c t)) (k3_pay3 (F := F)) := by
  obtain ⟨n, hn⟩ := t
  cases n with
  | zero => rfl
  | succ n => exact congrArg (k3_pay1 _ _) (if_pos h0)

theorem acc3_next (c : Dev nD) (t : Fin cfg3.N) (h0 : ¬t.val % 4 = 0) :
    acc3 V c t.val t.isLt = k3_pay1 (k3_pay5 (grid3.coords t) (lb3 V c t) (di3 V c t)) (k3_pay6 (grid3.coords t) (rb3 V c t) (dk3 V c t))
      (acc3 V c (t.val - 1) (Nat.lt_of_le_of_lt (Nat.sub_le _ _) t.isLt)) := by
  obtain ⟨n, hn⟩ := t
  cases n with
  | zero => exact absurd (Nat.zero_mod _) h0
  | succ n => exact congrArg (k3_pay1 _ _) (if_neg h0)

-- One step of the recursion for the accumulator, both cases at once.
theorem acc3_step (c : Dev nD) (t : Fin cfg3.N) (xs : Vec F S1024x1024 .f32) (hxs : ∀ h : t.val ≠ 0, xs = acc3 V c (t.val - 1) (Nat.lt_of_le_of_lt (Nat.sub_le _ _) t.isLt)) :
    acc3 V c t.val t.isLt = k3_pay1 (k3_pay5 (grid3.coords t) (lb3 V c t) (di3 V c t)) (k3_pay6 (grid3.coords t) (rb3 V c t) (dk3 V c t))
      (if cond3_0 (grid3.coords t) then k3_pay3 (F := F) else xs) := by
  by_cases h0 : t.val % 4 = 0
  · rw [if_pos ((hcond3_0 t).mpr h0), acc3_first V c t h0]
  · rw [if_neg (mt (hcond3_0 t).mp h0), acc3_next V c t h0, hxs fun e => h0 (by rw [e])]

def Phi3 (c : Dev nD) (n : ℕ) (hn : n ≤ cfg3.N) : sProp 𝕄 :=
  iprop((∃ x, ⌜∀ h : n ≠ 0, x = acc3 V c (n - 1) (by omega)⌝ ∗ ownsTc c (Memref.whole cc3_scratch0) fullShare x)
    ∗ Pipeline.scopedRestBut (Ix := Unit) (Name := ℕ) (U := UR sig nD τ) (Lvl := ℕ) (Val := Elt F) spec3 c [cc3_scratch0]
    ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay2 (Scalar.muli (BitVec.ofNat 32 ((grid3.coords t) 0).val) 1024#32) (Scalar.muli (BitVec.ofNat 32 ((grid3.coords t) 1).val) 1024#32)
        (k3_pay4 (di3 V c t)) (db3 V c t) (acc3 V c t.val t.isLt)
  Φ t := Phi3 V c t.val (Nat.le_of_lt_succ t.isLt)
  q := fun
    | 0 => fullShare.left
    | 1 => fullShare.right.left
    | 2 => fullShare.right.right
    | 3 => fullShare.left
    | 4 => fullShare.right
    | 5 => fullShare
    | ⟨_ + 6, h⟩ => absurd h (Nat.not_lt.2 (Nat.le_add_left _ _))
  owed _ := 0

theorem A_eq3 (c : Dev nD) (w : Fin cfg3.W) : (dat3 V c).A w = V c (Pipeline.arrRef spec3 w) := rfl

theorem after3_5 (c : Dev nD) (t : Fin cfg3.N) : (dat3 V c).after 5 t =
    k3_pay2 (Scalar.muli (BitVec.ofNat 32 ((grid3.coords t) 0).val) 1024#32) (Scalar.muli (BitVec.ofNat 32 ((grid3.coords t) 1).val) 1024#32)
      (k3_pay4 (di3 V c t)) (db3 V c t) (acc3 V c t.val t.isLt) := by dsimp only [dat3]

-- No input is written: what is found of it is what is left of it.
theorem before3 (c : Dev nD) : ∀ w : Fin cfg3.W, w ≠ 5 → ∀ t d, (dat3 V c).before w t d = (dat3 V c).after w t
  | ⟨0, _⟩, _ | ⟨1, _⟩, _ | ⟨2, _⟩, _ | ⟨3, _⟩, _ | ⟨4, _⟩, _ => fun t d =>
    (dat3 V c).before_in_eq_fetched _ rfl (fun _ => rfl) (fun _ _ _ => rfl) (fun _ => rfl) t d
  | ⟨5, _⟩, h => absurd rfl h

theorem leaves3 (c : Dev nD) (w : Fin cfg3.W) (hw : w ≠ 5) (t : Fin cfg3.N) :
    (dat3 V c).leavesExact w t = ownsTc c ((cfg3.win w).stage (cfg3.slots t w)) fullShare ((dat3 V c).after w t) := by
  unfold Dat.leavesExact; rw [liveAt3 w t hw]

-- The output window leaves the blend at k = 3 and what it found at every other point.
theorem leaves3_5 (c : Dev nD) (t : Fin cfg3.N) (d) :
    ownsTc c (st3_5 t) fullShare (if cond3_1 (grid3.coords t) then (dat3 V c).after 5 t else (dat3 V c).before 5 t d) ⊢ (dat3 V c).leavesExact 5 t := by
  have hi := idle3_5 t
  by_cases h : cond3_1 (grid3.coords t)
  · rw [if_pos h] at hi ⊢; unfold Dat.leavesExact; rw [hi]
  · rw [if_neg h] at hi ⊢; rw [Dat.leavesExact_idle _ 5 t hi.1 hi.2]; iintro H; iexists d; iexact H

theorem sound_body3 (c : Dev nD) (t : Fin cfg3.N) :
    iprop(Phi3 V c t.val (Nat.le_of_lt t.isLt) ∗ (dat3 V c).owesAt () t.castSucc
        ∗ bigSep Finset.univ fun w => iprop(∃ d, ownsTc c ((cfg3.win w).stage (cfg3.slots t w)) fullShare ((dat3 V c).before w t d)))
      ⊢ wp frame (wpE (defs₀ (F := F)) Variants.none c none) Set.univ (bodyAt3 t) fun _ =>
        iprop(Phi3 V c (t.val + 1) t.isLt ∗ (dat3 V c).owesAt () t.castSucc ∗ bigSep Finset.univ fun w => (dat3 V c).leavesExact w t) := by
  rw [bigSep_W3, bigSep_W3]
  simp (disch := decide) only [before3 V c, leaves3 V c]
  unfold Phi3
  iintro ⟨⟨⟨%xs, %hxs, HS⟩, HR, Hg⟩, Ho, ⟨%d0, H0⟩, ⟨%d1, H1⟩, ⟨%d2, H2⟩, ⟨%d3, H3⟩, ⟨%d4, H4⟩, ⟨%d5, H5⟩⟩
  iapply (run3 c Set.univ (grid3.coords t) _ _ _ _ _ _ _ _ _ _ _ _ _ _ _ _ _ _ _ ((dat3 V c).before 5 t d5) _ _ (acc3_step V c t xs hxs) (excl3 t) _)
  isplitl [HR Hg Ho]; swap; · sl_close
  iintro ⟨H5, HS, H0, H1, H2, H3, H4⟩
  ihave H5 := (leaves3_5 V c t d5) $$ [H5]
  · iexact H5
  iframe HR Hg Ho
  isplitl [HS]
  · iexists _; iframe; ipureintro; exact fun _ => rfl
  sl_close

theorem body_obligation3 (c : Dev nD) : BodyObligation (dat3 (F := F) V c) (defs₀ (F := F)) Variants.none () Set.univ := sound_body3 V c

theorem hin3 (c : Dev nD) :
    iprop((∃ r, prngReg c r) ∗ Pipeline.scopedRest (Ix := Unit) (Name := ℕ) (U := UR sig nD τ) (Lvl := ℕ) (Val := Elt F) spec3 c) ⊢ (dat3 V c).Φ 0 := by
  change _ ⊢ Phi3 V c 0 (Nat.zero_le _)
  rw [scopedRest3_split]; unfold Phi3
  simp only [ownsTc, owns_whole]
  iintro ⟨Hg, ⟨%f, HS⟩, HR⟩
  iframe Hg HR
  iexists f; isplitr; · ipureintro; exact fun h => absurd rfl h
  iexact HS

theorem hout3 (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c) := by
  change Phi3 V c cfg3.N (Nat.le_refl _) ⊢ _
  rw [scopedRest3_split]; unfold Phi3
  simp only [ownsTc, owns_whole]
  iintro ⟨⟨%x, -, HS⟩, HR, Hg⟩
  iframe Hg HR
  iexists x; iexact HS

end Cert.KernelIdeal.Gen

end
-- ==== Proof.KI.R4.lean ====
import proofs.«106325_j17265768530288_1_alg».proof.Proof.Gen.KernelIdeal.Launch
import proofs.«106325_j17265768530288_1_alg».proof.Proof.Gen.KernelIdeal.Skeleton
import proofs.«106325_j17265768530288_1_alg».proof.Proof.Gen.KernelIdeal.Points
import proofs.«106325_j17265768530288_1_alg».proof.Proof.LibStore
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev kb4 (c : Dev nD) (t : Fin cfg4.N) : Vec F S1024x1024 .bf16 := iblk4 V c 0 t
abbrev xb4 (c : Dev nD) (t : Fin cfg4.N) : Vec F S1024x128 .f32 := iblk4 V c 1 t
abbrev wb4 (c : Dev nD) (t : Fin cfg4.N) : Vec F S128x128 .f32 := iblk4 V c 2 t
abbrev bb4 (c : Dev nD) (t : Fin cfg4.N) : Vec F S1x128 .f32 := iblk4 V c 3 t

abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1
theorem hcond4_0 : ∀ t : Fin cfg4.N, cond4_0 (grid4.coords t) ↔ t.val % 4 = 0 :=
  (by decide +kernel : ∀ t : Fin grid4.N, cond4_0 (grid4.coords t) ↔ t.val % 4 = 0)
theorem excl4 : ∀ t : Fin cfg4.N, cond4_0 (grid4.coords t) → ¬cond4_1 (grid4.coords t) :=
  (by decide +kernel : ∀ t : Fin grid4.N, cond4_0 (grid4.coords t) → ¬cond4_1 (grid4.coords t))
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev scM4 : Memref sig .tc .vmem S1024x128 .f32 := Memref.whole cc4_scratch0

section Run
variable (c : Dev nD) (E : Set ℕ) (i : grid4.Coords)
    (arg2 : Memref sig .tc .vmem S1024x1024 .bf16) (harg2 : arg2.IsWhole) (arg3 : Memref sig .tc .vmem S1024x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (x0 : Vec F S1024x1024 .bf16) (x1 : Vec F S1024x128 .f32) (x2 : Vec F S128x128 .f32) (x3 : Vec F S1x128 .f32)

-- One body for every point: the accumulator restarts from zero at k = 0, the output is written only at k = 3.
theorem run4 (hx : cond4_0 i → ¬cond4_1 i) (xo xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg6 fullShare (if cond4_1 i then k4_pay3 (k4_pay2 (if cond4_0 i then k4_pay1 (F := F) else xs) x0 x1) x2 x3 else xo)
            ∗ owns (c : Thread nD τ) arg7 fullShare (k4_pay2 (if cond4_0 i then k4_pay1 (F := F) else xs) x0 x1)
            ∗ owns (c : Thread nD τ) arg2 fullShare x0 ∗ owns (c : Thread nD τ) arg3 fullShare x1 ∗ owns (c : Thread nD τ) arg4 fullShare x2 ∗ owns (c : Thread nD τ) arg5 fullShare x3) -∗ K ⟨⟩))
      ⊢ wp frame (wpE (defs₀ (F := F)) Variants.none c none) E (cc4__mm_update_kernel i arg2 harg2 arg3 harg3 arg4 harg4 arg5 harg5 arg6 harg6 arg7 harg7) K := by
  simp only [cc4__mm_update_kernel_eq_skeleton]; unfold cc4__mm_update_kernel_skel owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0 hf1 hf2 hf3 hf4 hfs
  by_cases hc0 : cond4_0 i <;> by_cases hc1 : cond4_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H4]; rotate_left; isplitl [HS]; rotate_left; isplitl [H0]; rotate_left; isplitl [H1]; rotate_left; isplitl [H2]; rotate_left
    all_goals
      iexists _; iframe; ipureintro
      try sl_unfold_words
      try rw [Hand.read_writes_unit _ _ Hand.off2_zero]
      simp only [View.readAt_eq_ld, View.ld_unit_zero (S := S128x128) Hand.off2_zero, View.ld_unit_zero (S := S1x128) Hand.off2_zero, View.ld_unit_zero (S := S1024x128) Hand.off2_zero,
        View.ld_unit_zero (S := S1024x1024) Hand.off2_zero, View.readCov_unit_zero (S := S1024x128) _ Hand.off2_zero]

end Run

def acc4 (c : Dev nD) : (n : ℕ) → n < cfg4.N → Vec F S1024x128 .f32
  | 0, hn => k4_pay2 (k4_pay1 (F := F)) (kb4 V c ⟨0, hn⟩) (xb4 V c ⟨0, hn⟩)
  | n + 1, hn =>
    if (n + 1) % 4 = 0 then k4_pay2 (k4_pay1 (F := F)) (kb4 V c ⟨n + 1, hn⟩) (xb4 V c ⟨n + 1, hn⟩)
    else k4_pay2 (acc4 c n (Nat.lt_of_succ_lt hn)) (kb4 V c ⟨n + 1, hn⟩) (xb4 V c ⟨n + 1, hn⟩)

theorem acc4_first (c : Dev nD) (t : Fin cfg4.N) (h0 : t.val % 4 = 0) :
    acc4 V c t.val t.isLt = k4_pay2 (k4_pay1 (F := F)) (kb4 V c t) (xb4 V c t) := by
  obtain ⟨n, hn⟩ := t
  cases n with
  | zero => rfl
  | succ n => exact if_pos h0

theorem acc4_next (c : Dev nD) (t : Fin cfg4.N) (h0 : ¬t.val % 4 = 0) :
    acc4 V c t.val t.isLt = k4_pay2 (acc4 V c (t.val - 1) (Nat.lt_of_le_of_lt (Nat.sub_le _ _) t.isLt)) (kb4 V c t) (xb4 V c t) := by
  obtain ⟨n, hn⟩ := t
  cases n with
  | zero => exact absurd (Nat.zero_mod _) h0
  | succ n => exact if_neg h0

-- The two equations of the accumulator as one step from whatever the point before left.
theorem acc4_step (c : Dev nD) (t : Fin cfg4.N) (xs : Vec F S1024x128 .f32)
    (hxs : ∀ h : t.val ≠ 0, xs = acc4 V c (t.val - 1) (Nat.lt_of_le_of_lt (Nat.sub_le _ _) t.isLt)) :
    acc4 V c t.val t.isLt = k4_pay2 (if cond4_0 (grid4.coords t) then k4_pay1 (F := F) else xs) (kb4 V c t) (xb4 V c t) := by
  by_cases h0 : t.val % 4 = 0
  · rw [if_pos ((hcond4_0 t).mpr h0), acc4_first V c t h0]
  · rw [if_neg (mt (hcond4_0 t).mp h0), acc4_next V c t h0, hxs fun e => h0 (by rw [e])]

def Phi4 (c : Dev nD) (n : ℕ) (hn : n ≤ cfg4.N) : sProp 𝕄 :=
  iprop((∃ x, ⌜∀ h : n ≠ 0, x = acc4 V c (n - 1) (by omega)⌝ ∗ owns (c : Thread nD τ) scM4 fullShare x)
    ∗ Pipeline.scopedRestBut (Ix := Unit) (Name := ℕ) (U := UR sig nD τ) (Lvl := ℕ) (Val := Elt F) spec4 c [cc4_scratch0]
    ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (acc4 V c t.val t.isLt) (wb4 V c t) (bb4 V c t)
  Φ t := Phi4 V c t.val (Nat.le_of_lt_succ t.isLt)
  q _ := fullShare
  owed _ := 0

theorem after4_4 (c : Dev nD) (t : Fin cfg4.N) : (dat4 V c).after 4 t = k4_pay3 (acc4 V c t.val t.isLt) (wb4 V c t) (bb4 V c t) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

-- The output window is written where k = 3 and keeps what it held elsewhere.
theorem leaves4_out (c : Dev nD) (t : Fin cfg4.N) (d) :
    owns (c : Thread nD τ) (st4_4 t) fullShare (if cond4_1 (grid4.coords t) then (dat4 V c).after 4 t else (dat4 V c).before 4 t d) ⊢ (dat4 V c).leavesExact 4 t := by
  by_cases h : cond4_1 (grid4.coords t)
  · rw [if_pos h]; unfold Dat.leavesExact; rw [liveAt4_4 t h]
  · rw [if_neg h, Dat.leavesExact_idle _ 4 t (idleAt4_4 t h) (noFlush4_4 t h)]; iintro H; iexists d; iexact H

theorem body_obligation4 (c : Dev nD) : BodyObligation (dat4 (F := F) V c) (defs₀ (F := F)) Variants.none () Set.univ := fun t => by
  rw [bigSep_W4, bigSep_W4]
  change iprop(Phi4 V c t.val (Nat.le_of_lt t.isLt) ∗ _) ⊢ wp _ _ _ (bodyAt4 t) fun _ =>
    iprop(Phi4 V c (t.val + 1) t.isLt ∗ (dat4 V c).owesAt () t.castSucc ∗ owns (c : Thread nD τ) (st4_0 t) fullShare (iblk4 V c 0 t)
      ∗ owns (c : Thread nD τ) (st4_1 t) fullShare (iblk4 V c 1 t) ∗ owns (c : Thread nD τ) (st4_2 t) fullShare (iblk4 V c 2 t)
      ∗ owns (c : Thread nD τ) (st4_3 t) fullShare (iblk4 V c 3 t) ∗ (dat4 V c).leavesExact 4 t)
  simp only [before4_0, before4_1, before4_2, before4_3]
  unfold Phi4
  iintro ⟨⟨⟨%xs, %hxs, HS⟩, HR, Hg⟩, Ho, ⟨%d0, H0⟩, ⟨%d1, H1⟩, ⟨%d2, H2⟩, ⟨%d3, H3⟩, ⟨%d4, H4⟩⟩
  iapply (run4 c Set.univ (grid4.coords t) _ _ _ _ _ _ _ _ _ _ _ _ (iblk4 V c 0 t) (iblk4 V c 1 t) (iblk4 V c 2 t) (iblk4 V c 3 t) (excl4 t) ((dat4 V c).before 4 t d4) xs _)
  iframe H0 H1 H2 H3 H4 HS
  iintro ⟨H4, HS, H0, H1, H2, H3⟩
  rw [← acc4_step V c t xs hxs]
  iframe HR Hg Ho H0 H1 H2 H3
  isplitl [HS]
  · iexists _; iframe HS; ipureintro; exact fun _ => rfl
  iapply leaves4_out V c t d4; iexact H4

theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Phi4 V c 0 (Nat.zero_le _) from rfl, scopedRest4_split]
  unfold Phi4
  simp only [scM4, owns_whole]
  iintro ⟨Hg, ⟨%f, HS⟩, HR⟩
  iframe Hg HR; iexists f; iframe HS; ipureintro; exact fun h => absurd rfl h

theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl, scopedRest4_split]
  unfold Phi4
  simp only [scM4, owns_whole]
  iintro ⟨⟨%x, -, HS⟩, HR, Hg⟩
  iframe Hg HR; iexists x; iexact HS

end Cert.KernelIdeal.Gen

end
-- ==== Proof.KI.R5.lean ====
import proofs.«106325_j17265768530288_1_alg».proof.Proof.Gen.KernelIdeal.Launch
import proofs.«106325_j17265768530288_1_alg».proof.Proof.Gen.KernelIdeal.Skeleton
import proofs.«106325_j17265768530288_1_alg».proof.Proof.Gen.KernelIdeal.Points
import proofs.«106325_j17265768530288_1_alg».proof.Proof.LibStore
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev kb5 (c : Dev nD) (t : Fin cfg5.N) : Vec F S1024x1024 .bf16 := iblk5 V c 0 t
abbrev xb5 (c : Dev nD) (t : Fin cfg5.N) : Vec F S1024x128 .f32 := iblk5 V c 1 t
abbrev wb5 (c : Dev nD) (t : Fin cfg5.N) : Vec F S128x128 .f32 := iblk5 V c 2 t
abbrev bb5 (c : Dev nD) (t : Fin cfg5.N) : Vec F S1x128 .f32 := iblk5 V c 3 t

abbrev cond5_0 (i : grid5.Coords) : Prop := (Scalar.cmpi .ne (Scalar.extui (Scalar.cmpi .eq (BitVec.ofNat 32 (i 1).val) 0#32)) 0#32) = 1#1
abbrev cond5_1 (i : grid5.Coords) : Prop := k5_cond2 i = 1#1
theorem hcond5_0 : ∀ t : Fin cfg5.N, cond5_0 (grid5.coords t) ↔ t.val % 4 = 0 :=
  (by decide +kernel : ∀ t : Fin grid5.N, cond5_0 (grid5.coords t) ↔ t.val % 4 = 0)
theorem excl5 : ∀ t : Fin cfg5.N, cond5_0 (grid5.coords t) → ¬cond5_1 (grid5.coords t) :=
  (by decide +kernel : ∀ t : Fin grid5.N, cond5_0 (grid5.coords t) → ¬cond5_1 (grid5.coords t))
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

abbrev scM5 : Memref sig .tc .vmem S1024x128 .f32 := Memref.whole cc5_scratch0

section Run
variable (c : Dev nD) (E : Set ℕ) (i : grid5.Coords)
    (arg2 : Memref sig .tc .vmem S1024x1024 .bf16) (harg2 : arg2.IsWhole) (arg3 : Memref sig .tc .vmem S1024x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (x0 : Vec F S1024x1024 .bf16) (x1 : Vec F S1024x128 .f32) (x2 : Vec F S128x128 .f32) (x3 : Vec F S1x128 .f32)

-- One body for every point: the accumulator restarts from zero at k = 0, the output is written only at k = 3.
theorem run5 (hx : cond5_0 i → ¬cond5_1 i) (xo xs : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare xs
        ∗ (iprop(owns (c : Thread nD τ) arg6 fullShare (if cond5_1 i then k5_pay3 (k5_pay2 (if cond5_0 i then k5_pay1 (F := F) else xs) x0 x1) x2 x3 else xo)
            ∗ owns (c : Thread nD τ) arg7 fullShare (k5_pay2 (if cond5_0 i then k5_pay1 (F := F) else xs) x0 x1)
            ∗ owns (c : Thread nD τ) arg2 fullShare x0 ∗ owns (c : Thread nD τ) arg3 fullShare x1 ∗ owns (c : Thread nD τ) arg4 fullShare x2 ∗ owns (c : Thread nD τ) arg5 fullShare x3) -∗ K ⟨⟩))
      ⊢ wp frame (wpE (defs₀ (F := F)) Variants.none c none) E (cc5__mm_update_kernel i arg2 harg2 arg3 harg3 arg4 harg4 arg5 harg5 arg6 harg6 arg7 harg7) K := by
  simp only [cc5__mm_update_kernel_eq_skeleton]; unfold cc5__mm_update_kernel_skel owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0 hf1 hf2 hf3 hf4 hfs
  by_cases hc0 : cond5_0 i <;> by_cases hc1 : cond5_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H4]; rotate_left; isplitl [HS]; rotate_left; isplitl [H0]; rotate_left; isplitl [H1]; rotate_left; isplitl [H2]; rotate_left
    all_goals
      iexists _; iframe; ipureintro
      try sl_unfold_words
      try rw [Hand.read_writes_unit _ _ Hand.off2_zero]
      simp only [View.readAt_eq_ld, View.ld_unit_zero (S := S128x128) Hand.off2_zero, View.ld_unit_zero (S := S1x128) Hand.off2_zero, View.ld_unit_zero (S := S1024x128) Hand.off2_zero,
        View.ld_unit_zero (S := S1024x1024) Hand.off2_zero, View.readCov_unit_zero (S := S1024x128) _ Hand.off2_zero]

end Run

def acc5 (c : Dev nD) : (n : ℕ) → n < cfg5.N → Vec F S1024x128 .f32
  | 0, hn => k5_pay2 (k5_pay1 (F := F)) (kb5 V c ⟨0, hn⟩) (xb5 V c ⟨0, hn⟩)
  | n + 1, hn =>
    if (n + 1) % 4 = 0 then k5_pay2 (k5_pay1 (F := F)) (kb5 V c ⟨n + 1, hn⟩) (xb5 V c ⟨n + 1, hn⟩)
    else k5_pay2 (acc5 c n (Nat.lt_of_succ_lt hn)) (kb5 V c ⟨n + 1, hn⟩) (xb5 V c ⟨n + 1, hn⟩)

theorem acc5_first (c : Dev nD) (t : Fin cfg5.N) (h0 : t.val % 4 = 0) :
    acc5 V c t.val t.isLt = k5_pay2 (k5_pay1 (F := F)) (kb5 V c t) (xb5 V c t) := by
  obtain ⟨n, hn⟩ := t
  cases n with
  | zero => rfl
  | succ n => exact if_pos h0

theorem acc5_next (c : Dev nD) (t : Fin cfg5.N) (h0 : ¬t.val % 4 = 0) :
    acc5 V c t.val t.isLt = k5_pay2 (acc5 V c (t.val - 1) (Nat.lt_of_le_of_lt (Nat.sub_le _ _) t.isLt)) (kb5 V c t) (xb5 V c t) := by
  obtain ⟨n, hn⟩ := t
  cases n with
  | zero => exact absurd (Nat.zero_mod _) h0
  | succ n => exact if_neg h0

-- The two equations of the accumulator as one step from whatever the point before left.
theorem acc5_step (c : Dev nD) (t : Fin cfg5.N) (xs : Vec F S1024x128 .f32)
    (hxs : ∀ h : t.val ≠ 0, xs = acc5 V c (t.val - 1) (Nat.lt_of_le_of_lt (Nat.sub_le _ _) t.isLt)) :
    acc5 V c t.val t.isLt = k5_pay2 (if cond5_0 (grid5.coords t) then k5_pay1 (F := F) else xs) (kb5 V c t) (xb5 V c t) := by
  by_cases h0 : t.val % 4 = 0
  · rw [if_pos ((hcond5_0 t).mpr h0), acc5_first V c t h0]
  · rw [if_neg (mt (hcond5_0 t).mp h0), acc5_next V c t h0, hxs fun e => h0 (by rw [e])]

def Phi5 (c : Dev nD) (n : ℕ) (hn : n ≤ cfg5.N) : sProp 𝕄 :=
  iprop((∃ x, ⌜∀ h : n ≠ 0, x = acc5 V c (n - 1) (by omega)⌝ ∗ owns (c : Thread nD τ) scM5 fullShare x)
    ∗ Pipeline.scopedRestBut (Ix := Unit) (Name := ℕ) (U := UR sig nD τ) (Lvl := ℕ) (Val := Elt F) spec5 c [cc5_scratch0]
    ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (acc5 V c t.val t.isLt) (wb5 V c t) (bb5 V c t)
  Φ t := Phi5 V c t.val (Nat.le_of_lt_succ t.isLt)
  q _ := fullShare
  owed _ := 0

theorem after5_4 (c : Dev nD) (t : Fin cfg5.N) : (dat5 V c).after 4 t = k5_pay3 (acc5 V c t.val t.isLt) (wb5 V c t) (bb5 V c t) := rfl

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

-- The output window is written where k = 3 and keeps what it held elsewhere.
theorem leaves5_out (c : Dev nD) (t : Fin cfg5.N) (d) :
    owns (c : Thread nD τ) (st5_4 t) fullShare (if cond5_1 (grid5.coords t) then (dat5 V c).after 4 t else (dat5 V c).before 4 t d) ⊢ (dat5 V c).leavesExact 4 t := by
  by_cases h : cond5_1 (grid5.coords t)
  · rw [if_pos h]; unfold Dat.leavesExact; rw [liveAt5_4 t h]
  · rw [if_neg h, Dat.leavesExact_idle _ 4 t (idleAt5_4 t h) (noFlush5_4 t h)]; iintro H; iexists d; iexact H

theorem body_obligation5 (c : Dev nD) : BodyObligation (dat5 (F := F) V c) (defs₀ (F := F)) Variants.none () Set.univ := fun t => by
  rw [bigSep_W5, bigSep_W5]
  change iprop(Phi5 V c t.val (Nat.le_of_lt t.isLt) ∗ _) ⊢ wp _ _ _ (bodyAt5 t) fun _ =>
    iprop(Phi5 V c (t.val + 1) t.isLt ∗ (dat5 V c).owesAt () t.castSucc ∗ owns (c : Thread nD τ) (st5_0 t) fullShare (iblk5 V c 0 t)
      ∗ owns (c : Thread nD τ) (st5_1 t) fullShare (iblk5 V c 1 t) ∗ owns (c : Thread nD τ) (st5_2 t) fullShare (iblk5 V c 2 t)
      ∗ owns (c : Thread nD τ) (st5_3 t) fullShare (iblk5 V c 3 t) ∗ (dat5 V c).leavesExact 4 t)
  simp only [before5_0, before5_1, before5_2, before5_3]
  unfold Phi5
  iintro ⟨⟨⟨%xs, %hxs, HS⟩, HR, Hg⟩, Ho, ⟨%d0, H0⟩, ⟨%d1, H1⟩, ⟨%d2, H2⟩, ⟨%d3, H3⟩, ⟨%d4, H4⟩⟩
  iapply (run5 c Set.univ (grid5.coords t) _ _ _ _ _ _ _ _ _ _ _ _ (iblk5 V c 0 t) (iblk5 V c 1 t) (iblk5 V c 2 t) (iblk5 V c 3 t) (excl5 t) ((dat5 V c).before 4 t d4) xs _)
  iframe H0 H1 H2 H3 H4 HS
  iintro ⟨H4, HS, H0, H1, H2, H3⟩
  rw [← acc5_step V c t xs hxs]
  iframe HR Hg Ho H0 H1 H2 H3
  isplitl [HS]
  · iexists _; iframe HS; ipureintro; exact fun _ => rfl
  iapply leaves5_out V c t d4; iexact H4

theorem hin5 (c : Dev nD) :
    iprop((∃ r, prngReg c r) ∗ Pipeline.scopedRest (Ix := Unit) (Name := ℕ) (U := UR sig nD τ) (Lvl := ℕ) (Val := Elt F) spec5 c) ⊢ (dat5 V c).Φ 0 := by
  rw [show (dat5 V c).Φ 0 = Phi5 V c 0 (Nat.zero_le _) from rfl, scopedRest5_split]
  unfold Phi5
  simp only [scM5, owns_whole]
  iintro ⟨Hg, ⟨%f, HS⟩, HR⟩
  iframe Hg HR; iexists f; iframe HS; ipureintro; exact fun h => absurd rfl h

theorem hout5 (c : Dev nD) :
    (dat5 V c).Φ (Fin.last cfg5.N) ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Phi5 V c (Fin.last cfg5.N).val (Nat.le_of_lt_succ (Fin.last cfg5.N).isLt) from rfl, scopedRest5_split]
  unfold Phi5
  simp only [scM5, owns_whole]
  iintro ⟨⟨%x, -, HS⟩, HR, Hg⟩
  iframe Hg HR; iexists x; iexact HS

end Cert.KernelIdeal.Gen

end
-- ==== Proof.KI.Shares.lean ====
import proofs.«106325_j17265768530288_1_alg».proof.Proof.Gen.KernelIdeal.Launch
import Idealize.ShloMosaic.Lib.Pipeline.Frame
import Idealize.ShloMosaic.Lib.Pipeline.Launch
import Idealize.ShloMosaic.Lib.Pipeline.Kit
import Idealize.ShloMosaic.Rules.PointsTo

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer `r` of core `c` at share `q`, holding what the valuation gives it. -/
abbrev heldAt (c : Dev nD) (W : Valuation τ sig (Elt F)) (r : Ref sig .tc) (q : PosShare TreeShare) : sProp 𝕄 :=
  iprop((c : Thread nD τ).loc r ↦{q} W (Proc.devRef .tc r))

/-- Three buffers, the first dealt in three and the second in two by halving the full share, the third whole. -/
abbrev dealtShares (c : Dev nD) (W : Valuation τ sig (Elt F)) (a b o : Ref sig .tc) : sProp 𝕄 :=
  iprop(heldAt c W a fullShare.left ∗ heldAt c W a fullShare.right.left ∗ heldAt c W a fullShare.right.right
    ∗ heldAt c W b fullShare.left ∗ heldAt c W b fullShare.right ∗ heldAt c W o fullShare)

variable (c : Dev nD) (W : Valuation τ sig (Elt F))

/-- Halving is lossless: the three buffers whole are the same resource as their dealt shares. -/
theorem deal_shares (a b o : Ref sig .tc) :
    iprop(heldAt c W a fullShare ∗ heldAt c W b fullShare ∗ heldAt c W o fullShare) ⊣⊢ dealtShares c W a b o := by
  unfold dealtShares heldAt
  constructor
  · iintro ⟨Ha, Hb, Ho⟩
    ihave Ha := (pointsTo_share (PosShare.mem_left_op_right fullShare)).1 $$ Ha
    icases Ha with ⟨Ha0, Ha⟩
    ihave Ha := (pointsTo_share (PosShare.mem_left_op_right fullShare.right)).1 $$ Ha
    icases Ha with ⟨Ha1, Ha2⟩
    ihave Hb := (pointsTo_share (PosShare.mem_left_op_right fullShare)).1 $$ Hb
    icases Hb with ⟨Hb3, Hb4⟩
    iframe
  · iintro ⟨Ha0, Ha1, Ha2, Hb3, Hb4, Ho⟩
    iframe Ho
    isplitl [Ha0 Ha1 Ha2]
    · iapply (pointsTo_share (PosShare.mem_left_op_right fullShare)).2
      iframe Ha0
      iapply (pointsTo_share (PosShare.mem_left_op_right fullShare.right)).2
      iframe
    iapply (pointsTo_share (PosShare.mem_left_op_right fullShare)).2
    iframe

/-- The buffers off a region's arrays are the same resource at two valuations that agree off those arrays. -/
theorem unscopedRest_agree {gr Wn : Nat} (win : Fin Wn → Pipeline.WinSpec sig gr) (W' : Valuation τ sig (Elt F))
    (hrest : ∀ b : Ref sig .tc, b ∉ Finset.univ.image (Pipeline.arrRef win) → W' (Proc.devRef .tc b) = W (Proc.devRef .tc b)) :
    (Pipeline.unscopedRest (Ix := Unit) (Name := ℕ) (U := UR sig nD τ) (Lvl := ℕ) win c (fun b => W (Proc.devRef .tc b)) : sProp 𝕄)
      = Pipeline.unscopedRest (Ix := Unit) (Name := ℕ) (U := UR sig nD τ) (Lvl := ℕ) win c (fun b => W' (Proc.devRef .tc b)) := by
  unfold Pipeline.unscopedRest
  exact bigSep_congr fun b hb => by dsimp only; rw [hrest b (Finset.mem_sdiff.mp hb).2]

theorem held_split2 (c : Dev nD) (W : Valuation τ sig (Elt F)) :
    (StableHlo.held (c : Thread nD τ) (Pipeline.ucRefs τ sig) W : sProp 𝕄)
      = iprop((heldAt c W main_arg1 fullShare ∗ heldAt c W main_v12 fullShare ∗ heldAt c W main_v14 fullShare)
        ∗ Pipeline.unscopedRest (Ix := Unit) (Name := ℕ) (U := UR sig nD τ) (Lvl := ℕ) spec2 c (fun b => W (Proc.devRef .tc b))) := by
  classical
  rw [← Pipeline.unscopedBufs_held (Ix := Unit) (Name := ℕ) (U := UR sig nD τ) (Lvl := ℕ) c W, Pipeline.unscopedBufs_split₀ cfgs 2 winFacts₀2.arr_unscoped c]
  unfold Pipeline.arrBufs
  rw [BI.bigSep_eq_bigSepL_of_eq [main_arg1, main_v12, main_v14] (by decide) (by decide)]
  rfl

theorem arrays_eq2 (c : Dev nD) (dat : Dat τ (Elt F) Unit ℕ (UR sig nD τ) ℕ cfg2 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg2.W) → Buf (Elt F) ((cfg2.win w).arr.view.loc (c : Thread nD τ)))
    (hG : ∀ w, G w = W (Proc.devRef .tc (Pipeline.arrRef spec2 w))) :
    (dat.arrays G : sProp 𝕄) = dealtShares c W main_arg1 main_v12 main_v14 := by
  unfold Dat.arrays
  rw [bigSep_W2]
  exact congrArg₂ BI.sep (by rw [show dat.share 0 = _ from (if_neg Bool.false_ne_true).trans hq0, (arr_whole2 0).set_eq_univ, hG 0])
    (congrArg₂ BI.sep (by rw [show dat.share 1 = _ from (if_neg Bool.false_ne_true).trans hq1, (arr_whole2 1).set_eq_univ, hG 1])
    (congrArg₂ BI.sep (by rw [show dat.share 2 = _ from (if_neg Bool.false_ne_true).trans hq2, (arr_whole2 2).set_eq_univ, hG 2])
    (congrArg₂ BI.sep (by rw [show dat.share 3 = _ from (if_neg Bool.false_ne_true).trans hq3, (arr_whole2 3).set_eq_univ, hG 3])
    (congrArg₂ BI.sep (by rw [show dat.share 4 = _ from (if_neg Bool.false_ne_true).trans hq4, (arr_whole2 4).set_eq_univ, hG 4])
      (by rw [show dat.share 5 = fullShare from if_pos rfl, (arr_whole2 5).set_eq_univ, hG 5])))))

theorem arrays_of_held2 (c : Dev nD) (dat : Dat τ (Elt F) Unit ℕ (UR sig nD τ) ℕ cfg2 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg2.W) → Buf (Elt F) ((cfg2.win w).arr.view.loc (c : Thread nD τ)))
    (hG : ∀ w, G w = W (Proc.devRef .tc (Pipeline.arrRef spec2 w))) :
    (StableHlo.held (c : Thread nD τ) (Pipeline.ucRefs τ sig) W : sProp 𝕄)
      ⊢ iprop(dat.arrays G ∗ Pipeline.unscopedRest (Ix := Unit) (Name := ℕ) (U := UR sig nD τ) (Lvl := ℕ) spec2 c (fun b => W (Proc.devRef .tc b))) := by
  rw [held_split2, arrays_eq2 c dat hq0 hq1 hq2 hq3 hq4 W G hG]
  exact sep_mono_left (deal_shares c W _ _ _).1

theorem held_of_arrays2 (c : Dev nD) (dat : Dat τ (Elt F) Unit ℕ (UR sig nD τ) ℕ cfg2 c)
    (hq0 : dat.q 0 = fullShare.left) (hq1 : dat.q 1 = fullShare.right.left) (hq2 : dat.q 2 = fullShare.right.right)
    (hq3 : dat.q 3 = fullShare.left) (hq4 : dat.q 4 = fullShare.right)
    (W W' : Valuation τ sig (Elt F)) (G : (w : Fin cfg2.W) → Buf (Elt F) ((cfg2.win w).arr.view.loc (c : Thread nD τ)))
    (hG : ∀ w, G w = W' (Proc.devRef .tc (Pipeline.arrRef spec2 w)))
    (hrest : ∀ b : Ref sig .tc, b ∉ Finset.univ.image (Pipeline.arrRef spec2) → W' (Proc.devRef .tc b) = W (Proc.devRef .tc b)) :
    iprop(dat.arrays G ∗ Pipeline.unscopedRest (Ix := Unit) (Name := ℕ) (U := UR sig nD τ) (Lvl := ℕ) spec2 c (fun b => W (Proc.devRef .tc b)))
      ⊢ (StableHlo.held (c : Thread nD τ) (Pipeline.ucRefs τ sig) W' : sProp 𝕄) := by
  rw [held_split2, arrays_eq2 c dat hq0 hq1 hq2 hq3 hq4 W' G hG, unscopedRest_agree c W spec2 W' hrest]
  exact sep_mono_left (deal_shares c W' _ _ _).2

theorem held_split3 (c : Dev nD) (W : Valuation τ sig (Elt F)) :
    (StableHlo.held (c : Thread nD τ) (Pipeline.ucRefs τ sig) W : sProp 𝕄)
      = iprop((heldAt c W main_v13 fullShare ∗ heldAt c W main_v12 fullShare ∗ heldAt c W main_v15 fullShare)
        ∗ Pipeline.unscopedRest (Ix := Unit) (Name := ℕ) (U := UR sig nD τ) (Lvl := ℕ) spec3 c (fun b => W (Proc.devRef .tc b))) := by
  classical
  rw [← Pipeline.unscopedBufs_held (Ix := Unit) (Name := ℕ) (U := UR sig nD τ) (Lvl := ℕ) c W, Pipeline.unscopedBufs_split₀ cfgs 3 winFacts₀3.arr_unscoped c]
  unfold Pipeline.arrBufs
  rw [BI.bigSep_eq_bigSepL_of_eq [main_v13, main_v12, main_v15] (by decide) (by decide)]
  rfl

theorem arrays_eq3 (c : Dev nD) (dat : Dat τ (Elt F) Unit ℕ (UR sig nD τ) ℕ cfg3 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg3.W) → Buf (Elt F) ((cfg3.win w).arr.view.loc (c : Thread nD τ)))
    (hG : ∀ w, G w = W (Proc.devRef .tc (Pipeline.arrRef spec3 w))) :
    (dat.arrays G : sProp 𝕄) = dealtShares c W main_v13 main_v12 main_v15 := by
  unfold Dat.arrays
  rw [bigSep_W3]
  exact congrArg₂ BI.sep (by rw [show dat.share 0 = _ from (if_neg Bool.false_ne_true).trans hq0, (arr_whole3 0).set_eq_univ, hG 0])
    (congrArg₂ BI.sep (by rw [show dat.share 1 = _ from (if_neg Bool.false_ne_true).trans hq1, (arr_whole3 1).set_eq_univ, hG 1])
    (congrArg₂ BI.sep (by rw [show dat.share 2 = _ from (if_neg Bool.false_ne_true).trans hq2, (arr_whole3 2).set_eq_univ, hG 2])
    (congrArg₂ BI.sep (by rw [show dat.share 3 = _ from (if_neg Bool.false_ne_true).trans hq3, (arr_whole3 3).set_eq_univ, hG 3])
    (congrArg₂ BI.sep (by rw [show dat.share 4 = _ from (if_neg Bool.false_ne_true).trans hq4, (arr_whole3 4).set_eq_univ, hG 4])
      (by rw [show dat.share 5 = fullShare from if_pos rfl, (arr_whole3 5).set_eq_univ, hG 5])))))

theorem arrays_of_held3 (c : Dev nD) (dat : Dat τ (Elt F) Unit ℕ (UR sig nD τ) ℕ cfg3 c)
    (hq0 : dat.q 0 = fullShare.left) (hq1 : dat.q 1 = fullShare.right.left) (hq2 : dat.q 2 = fullShare.right.right)
    (hq3 : dat.q 3 = fullShare.left) (hq4 : dat.q 4 = fullShare.right)
    (W : Valuation τ sig (Elt F)) (G : (w : Fin cfg3.W) → Buf (Elt F) ((cfg3.win w).arr.view.loc (c : Thread nD τ)))
    (hG : ∀ w, G w = W (Proc.devRef .tc (Pipeline.arrRef spec3 w))) :
    (StableHlo.held (c : Thread nD τ) (Pipeline.ucRefs τ sig) W : sProp 𝕄)
      ⊢ iprop(dat.arrays G ∗ Pipeline.unscopedRest (Ix := Unit) (Name := ℕ) (U := UR sig nD τ) (Lvl := ℕ) spec3 c (fun b => W (Proc.devRef .tc b))) := by
  rw [held_split3, arrays_eq3 c dat hq0 hq1 hq2 hq3 hq4 W G hG]
  exact sep_mono_left (deal_shares c W _ _ _).1

theorem held_of_arrays3 (c : Dev nD) (dat : Dat τ (Elt F) Unit ℕ (UR sig nD τ) ℕ cfg3 c)
    (hq0 : dat.q 0 = fullShare.left) (hq1 : dat.q 1 = fullShare.right.left) (hq2 : dat.q 2 = fullShare.right.right)
    (hq3 : dat.q 3 = fullShare.left) (hq4 : dat.q 4 = fullShare.right)
    (W W' : Valuation τ sig (Elt F)) (G : (w : Fin cfg3.W) → Buf (Elt F) ((cfg3.win w).arr.view.loc (c : Thread nD τ)))
    (hG : ∀ w, G w = W' (Proc.devRef .tc (Pipeline.arrRef spec3 w)))
    (hrest : ∀ b : Ref sig .tc, b ∉ Finset.univ.image (Pipeline.arrRef spec3) → W' (Proc.devRef .tc b) = W (Proc.devRef .tc b)) :
    iprop(dat.arrays G ∗ Pipeline.unscopedRest (Ix := Unit) (Name := ℕ) (U := UR sig nD τ) (Lvl := ℕ) spec3 c (fun b => W (Proc.devRef .tc b)))
      ⊢ (StableHlo.held (c : Thread nD τ) (Pipeline.ucRefs τ sig) W' : sProp 𝕄) := by
  rw [held_split3, arrays_eq3 c dat hq0 hq1 hq2 hq3 hq4 W' G hG, unscopedRest_agree c W spec3 W' hrest]
  exact sep_mono_left (deal_shares c W' _ _ _).2

end Cert.KernelIdeal.Gen

end
-- ==== Proof.KI.Run.lean ====
import proofs.«106325_j17265768530288_1_alg».proof.Proof.Gen.KernelIdeal.Regions
import proofs.«106325_j17265768530288_1_alg».proof.Proof.KI.R0
import proofs.«106325_j17265768530288_1_alg».proof.Proof.KI.R1
import proofs.«106325_j17265768530288_1_alg».proof.Proof.KI.R2
import proofs.«106325_j17265768530288_1_alg».proof.Proof.KI.R3
import proofs.«106325_j17265768530288_1_alg».proof.Proof.KI.R4
import proofs.«106325_j17265768530288_1_alg».proof.Proof.KI.R5
import proofs.«106325_j17265768530288_1_alg».proof.Proof.KI.Shares
import Idealize.ShloMosaic.Lib.Pipeline.RegionsLoop
import Idealize.ShloMosaic.Lib.Pipeline.FrameSuffix

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Wv0 (c : Dev nD) : Valuation τ sig (Elt F) := fun b => m (c, b)
abbrev Vr0 : (c : Dev nD) → (b : Ref sig .tc) → Buf (Elt F) ((c : Thread nD τ).loc b) := fun c b => Wv0 m c b

def Wv1 (c : Dev nD) : Valuation τ sig (Elt F) :=
  Pipeline.withArrays spec0 c (Wv0 m c) fun w => (dat0 (Vr0 m) c).arrAt w cfg0.N
theorem Wv1_arr (c : Dev nD) (w : Fin cfg0.W) :
    Wv1 m c (Proc.devRef .tc (Pipeline.arrRef spec0 w)) = (dat0 (Vr0 m) c).arrAt w cfg0.N :=
  Pipeline.withArrays_arr spec0 launch0.win.arr_inj c _ _ w

def Wv2 (c : Dev nD) : Valuation τ sig (Elt F) := StableHlo.after hostOps1 (Wv1 m c)
def Wv3 (c : Dev nD) : Valuation τ sig (Elt F) := StableHlo.after hostOps1_1 (Wv2 m c)
def Wv4 (c : Dev nD) : Valuation τ sig (Elt F) := StableHlo.after hostOps1_2 (Wv3 m c)
abbrev Vr4 : (c : Dev nD) → (b : Ref sig .tc) → Buf (Elt F) ((c : Thread nD τ).loc b) := fun c b => Wv4 m c b

def Wv5 (c : Dev nD) : Valuation τ sig (Elt F) :=
  Pipeline.withArrays spec1 c (Wv4 m c) fun w => (dat1 (Vr4 m) c).arrAt w cfg1.N
theorem Wv5_arr (c : Dev nD) (w : Fin cfg1.W) :
    Wv5 m c (Proc.devRef .tc (Pipeline.arrRef spec1 w)) = (dat1 (Vr4 m) c).arrAt w cfg1.N :=
  Pipeline.withArrays_arr spec1 launch1.win.arr_inj c _ _ w
abbrev Vr5 : (c : Dev nD) → (b : Ref sig .tc) → Buf (Elt F) ((c : Thread nD τ).loc b) := fun c b => Wv5 m c b

def Wv6 (c : Dev nD) : Valuation τ sig (Elt F) :=
  Function.update (Wv5 m c) (Proc.devRef .tc main_v14) ((dat2 (Vr5 m) c).arrAt 5 cfg2.N)
theorem Wv6_out (c : Dev nD) : Wv6 m c (Proc.devRef .tc main_v14) = (dat2 (Vr5 m) c).arrAt 5 cfg2.N :=
  Function.update_self ..
abbrev Vr6 : (c : Dev nD) → (b : Ref sig .tc) → Buf (Elt F) ((c : Thread nD τ).loc b) := fun c b => Wv6 m c b

def Wv7 (c : Dev nD) : Valuation τ sig (Elt F) :=
  Function.update (Wv6 m c) (Proc.devRef .tc main_v15) ((dat3 (Vr6 m) c).arrAt 5 cfg3.N)
theorem Wv7_out (c : Dev nD) : Wv7 m c (Proc.devRef .tc main_v15) = (dat3 (Vr6 m) c).arrAt 5 cfg3.N :=
  Function.update_self ..

def Wv8 (c : Dev nD) : Valuation τ sig (Elt F) := StableHlo.after hostOps4 (Wv7 m c)
abbrev Vr8 : (c : Dev nD) → (b : Ref sig .tc) → Buf (Elt F) ((c : Thread nD τ).loc b) := fun c b => Wv8 m c b

def Wv9 (c : Dev nD) : Valuation τ sig (Elt F) :=
  Pipeline.withArrays spec4 c (Wv8 m c) fun w => (dat4 (Vr8 m) c).arrAt w cfg4.N
theorem Wv9_arr (c : Dev nD) (w : Fin cfg4.W) :
    Wv9 m c (Proc.devRef .tc (Pipeline.arrRef spec4 w)) = (dat4 (Vr8 m) c).arrAt w cfg4.N :=
  Pipeline.withArrays_arr spec4 launch4.win.arr_inj c _ _ w
abbrev Vr9 : (c : Dev nD) → (b : Ref sig .tc) → Buf (Elt F) ((c : Thread nD τ).loc b) := fun c b => Wv9 m c b

def Wv10 (c : Dev nD) : Valuation τ sig (Elt F) :=
  Pipeline.withArrays spec5 c (Wv9 m c) fun w => (dat5 (Vr9 m) c).arrAt w cfg5.N
theorem Wv10_arr (c : Dev nD) (w : Fin cfg5.W) :
    Wv10 m c (Proc.devRef .tc (Pipeline.arrRef spec5 w)) = (dat5 (Vr9 m) c).arrAt w cfg5.N :=
  Pipeline.withArrays_arr spec5 launch5.win.arr_inj c _ _ w

def Wv11 (c : Dev nD) : Valuation τ sig (Elt F) := StableHlo.after hostOps6 (Wv10 m c)

def pdats : (p : Fin 6) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr4 m) c
  | ⟨2, _⟩ => fun c => dat2 (Vr5 m) c
  | ⟨3, _⟩ => fun c => dat3 (Vr6 m) c
  | ⟨4, _⟩ => fun c => dat4 (Vr8 m) c
  | ⟨5, _⟩ => fun c => dat5 (Vr9 m) c
abbrev 𝒱r : Variants := Variants.none
abbrev Lr : GSem nD τ sig → Finset Unit := fun _ => ∅
abbrev lvr : GSem nD τ sig → Unit → ℕ := fun _ _ => 0
abbrev Rr (c : Dev nD) : sProp 𝕄 := iprop((∃ r, prngReg c r) ∗ ∃ W, owes (c : Thread nD τ) (0 : CellTallies nD τ sig Unit) W)

/-- A region as a segment between the buffers held at `V` and at `V'`, given their split into its arrays and the rest and the join back. -/
def regOf (p : Fin 6) (hw : Pipeline.WinFacts₀ (cfgs p).spec) (hb : ∀ w, 0 < ((cfgs p).spec w).block.numel)
    (hs : ∀ w s, (((cfgs p).spec w).stage s).IsWhole) (V V' : Dev nD → Valuation τ sig (Elt F))
    (hbody : ∀ c, BodyObligation (pdats m p c) (defs₀ (F := F)) 𝒱r () Set.univ)
    (howed : ∀ c t, (pdats m p c).owed t = 0) (hrec : ∀ c, (pdats m p c).recorded 0 = Set.univ)
    (hin : ∀ c, iprop((∃ r, prngReg c r) ∗ Pipeline.scopedRest (cfgs p).spec c) ⊢ (pdats m p c).Φ 0)
    (hout : ∀ c, (pdats m p c).Φ (Fin.last (cfgs p).N) ⊢ iprop((∃ r, prngReg c r) ∗ Pipeline.scopedRest (cfgs p).spec c))
    (hsplit : ∀ c : Dev nD, (StableHlo.held (c : Thread nD τ) (Pipeline.ucRefs τ sig) (V c) : sProp 𝕄)
      ⊢ iprop((pdats m p c).arrays ((pdats m p c).arrAt · 0) ∗ Pipeline.unscopedRest (cfgs p).spec c fun b => V c b))
    (hjoin : ∀ c : Dev nD, iprop((pdats m p c).arrays ((pdats m p c).arrAt · (cfgs p).N) ∗ Pipeline.unscopedRest (cfgs p).spec c fun b => V c b)
      ⊢ (StableHlo.held (c : Thread nD τ) (Pipeline.ucRefs τ sig) (V' c) : sProp 𝕄)) :
    Pipeline.RegionSeg (pcfgs (F := F)) adm (pdats m) () defs₀ 𝒱r Lr lvr p where
  win := hw
  block_pos := hb
  stage_whole := hs
  K := PEmpty
  osem k := k.elim
  ho := Pipeline.OwnSemFacts.none _
  hbody c := (hbody c).loose
  hwaits := Pipeline.hwaits_of_owed_zero _ _ _ _ Lr lvr p howed
  pre c := iprop(StableHlo.held (c : Thread nD τ) (Pipeline.ucRefs τ sig) (V c) ∗ Rr c)
  post c := iprop(StableHlo.held (c : Thread nD τ) (Pipeline.ucRefs τ sig) (V' c) ∗ Rr c)
  X c := iprop(∃ r, prngReg c r)
  Y c := iprop(∃ r, prngReg c r)
  Z c := Pipeline.unscopedRest (cfgs p).spec c fun b => V c b
  hentry c := by
    rw [Pipeline.ownSems0_none]
    unfold Pipeline.Dat.owesAt Pipeline.owesWithin Pipeline.prefHeld
    rw [howed, Finset.univ_eq_empty, BI.bigSep_empty]
    iintro ⟨⟨Hub, Hp, %W, HO⟩, -, -⟩
    ihave H := (hsplit c) $$ Hub
    icases H with ⟨Ha, Hrest⟩
    imodintro
    iframe Ha Hp Hrest
    isplitr; · iempintro
    iexists W; isplitr; · ipureintro; exact fun x _ => Or.inl (by rw [hrec]; trivial)
    iexact HO
  hin c := by
    refine .trans ?_ (hin c)
    iintro ⟨Hp, -, Hr⟩; iframe
  hout c := by
    refine .trans (hout c) ?_
    rw [Pipeline.ownSems0_none]
    iintro ⟨Hp, Hr⟩; iframe; iempintro
  hexit c := by
    unfold Pipeline.Dat.owesAt Pipeline.owesWithin
    rw [howed]
    iintro ⟨Ha, ⟨%W, -, HO⟩, HY, Hrest⟩
    imodintro
    isplitl [Ha Hrest]; · iapply hjoin c; iframe
    isplitl [HY]; · iexact HY
    iexists W; iexact HO

/-- A region whose windows read distinct whole arrays: the held buffers split into them and the rest, -/
theorem splitW {p : Fin 6} (L : Pipeline.LaunchFacts (nD := nD) (τ := τ) cfgs p) (V : Dev nD → Valuation τ sig (Elt F))
    (hq : ∀ c w, (pdats m p c).q w = fullShare) (hA : ∀ c w, (pdats m p c).A w = V c (Pipeline.arrRef (cfgs p).spec w)) (c : Dev nD) :
    (StableHlo.held (c : Thread nD τ) (Pipeline.ucRefs τ sig) (V c) : sProp 𝕄)
      ⊢ iprop((pdats m p c).arrays ((pdats m p c).arrAt · 0) ∗ Pipeline.unscopedRest (cfgs p).spec c fun b => V c b) := by
  rw [← Pipeline.unscopedBufs_held]
  exact Pipeline.arrays_of_unscopedBufs (pcfgs (F := F)) adm (pdats m) L.win L.arr_whole c ((pdats m p c).share_full (hq c)) _ (hA c)

/-- and join again at the valuation that has the arrays as the region leaves them. -/
theorem joinW {p : Fin 6} (L : Pipeline.LaunchFacts (nD := nD) (τ := τ) cfgs p) (V : Dev nD → Valuation τ sig (Elt F))
    (hq : ∀ c w, (pdats m p c).q w = fullShare) (c : Dev nD) :
    iprop((pdats m p c).arrays ((pdats m p c).arrAt · (cfgs p).N) ∗ Pipeline.unscopedRest (cfgs p).spec c fun b => V c b)
      ⊢ (StableHlo.held (c : Thread nD τ) (Pipeline.ucRefs τ sig)
          (Pipeline.withArrays (cfgs p).spec c (V c) fun w => (pdats m p c).arrAt w (cfgs p).N) : sProp 𝕄) := by
  rw [← Pipeline.unscopedBufs_held]
  exact Pipeline.unscopedBufs_of_arrays (pcfgs (F := F)) adm L.win L.arr_whole c (pdats m) ((pdats m p c).share_full (hq c)) _ _ _
    (fun w => (Pipeline.withArrays_arr (cfgs p).spec L.win.arr_inj c (V c) (fun w => (pdats m p c).arrAt w (cfgs p).N) w).symm)
    fun b hb => Pipeline.withArrays_of_ne (cfgs p).spec c (V c) _ b fun w e => hb (Finset.mem_image.mpr ⟨w, Finset.mem_univ _, e⟩)

/-- Such a region leaves every buffer that is no output array of it as entered. -/
theorem keepW {p : Fin 6} (L : Pipeline.LaunchFacts (nD := nD) (τ := τ) cfgs p) (c : Dev nD) (V : Valuation τ sig (Elt F))
    (hA : ∀ w, (pdats m p c).A w = V (Proc.devRef .tc (Pipeline.arrRef (cfgs p).spec w))) (b : Ref sig .tc)
    (h : ∀ w, Pipeline.arrRef (cfgs p).spec w = b → ((cfgs p).win w).isOut = false) :
    Pipeline.withArrays (cfgs p).spec c V (fun w => (pdats m p c).arrAt w (cfgs p).N) (Proc.devRef .tc b) = V (Proc.devRef .tc b) := by
  by_cases hb : ∃ w, Pipeline.arrRef (cfgs p).spec w = b
  · obtain ⟨w, rfl⟩ := hb
    exact (Pipeline.withArrays_arr _ L.win.arr_inj c _ _ w).trans (((pdats m p c).arrAt_in w (h w rfl) _).trans (hA w))
  · exact Pipeline.withArrays_of_ne _ c _ _ b fun w e => hb ⟨w, e⟩

/-- At the exit of a region with one output window `o`, each window's array is what the valuation updated at `o`'s array holds. -/
theorem arrAt_update {p : Fin 6} (c : Dev nD) (V : Valuation τ sig (Elt F)) (o : Fin (cfgs p).W)
    (hA : ∀ w, (pdats m p c).A w = V (Proc.devRef .tc (Pipeline.arrRef (cfgs p).spec w)))
    (ho : ∀ w, w ≠ o → ((cfgs p).win w).isOut = false ∧ Pipeline.arrRef (cfgs p).spec w ≠ Pipeline.arrRef (cfgs p).spec o) (w : Fin (cfgs p).W) :
    (pdats m p c).arrAt w (cfgs p).N
      = Function.update V (Proc.devRef .tc (Pipeline.arrRef (cfgs p).spec o)) ((pdats m p c).arrAt o (cfgs p).N) (Proc.devRef .tc (Pipeline.arrRef (cfgs p).spec w)) := by
  by_cases h : w = o
  · subst h; exact Eq.symm (Function.update_self ..)
  · exact (((pdats m p c).arrAt_in w (ho w h).1 _).trans (hA w)).trans (Eq.symm (Function.update_of_ne (StableHlo.devRef_ne_of_ne (ho w h).2) ..))

def reg0 :=
  regOf m 0 launch0.win.to₀ launch0.block_pos launch0.stage_whole (Wv0 m) (Wv1 m) (body_obligation0 (Vr0 m)) (fun _ _ => rfl) (fun _ => rfl)
    (hin0 (Vr0 m)) (hout0 (Vr0 m)) (splitW m launch0 (Wv0 m) (fun _ _ => rfl) fun _ _ => rfl) (joinW m launch0 (Wv0 m) fun _ _ => rfl)

def reg1 :=
  regOf m 1 launch1.win.to₀ launch1.block_pos launch1.stage_whole (Wv4 m) (Wv5 m) (body_obligation1 (Vr4 m)) (fun _ _ => rfl) (fun _ => rfl)
    (hin1 (Vr4 m)) (hout1 (Vr4 m)) (splitW m launch1 (Wv4 m) (fun _ _ => rfl) fun _ _ => rfl) (joinW m launch1 (Wv4 m) fun _ _ => rfl)

def reg2 :=
  regOf m 2 winFacts₀2 block_pos2 stage_whole2 (Wv5 m) (Wv6 m) (body_obligation2 (Vr5 m)) (fun _ _ => rfl) (fun _ => rfl) (hin2 (Vr5 m)) (hout2 (Vr5 m))
    (fun c => arrays_of_held2 c (pdats m 2 c) rfl rfl rfl rfl rfl (Wv5 m c) _ fun _ => rfl)
    fun c => held_of_arrays2 c (pdats m 2 c) rfl rfl rfl rfl rfl (Wv5 m c) (Wv6 m c) _ (arrAt_update m (p := 2) c (Wv5 m c) 5 (fun _ => rfl) (by decide))
      fun b hb => Function.update_of_ne (StableHlo.devRef_ne_of_ne fun e => hb (Finset.mem_image.mpr ⟨5, Finset.mem_univ _, e.symm⟩)) ..

def reg3 :=
  regOf m 3 winFacts₀3 block_pos3 stage_whole3 (Wv6 m) (Wv7 m) (body_obligation3 (Vr6 m)) (fun _ _ => rfl) (fun _ => rfl) (hin3 (Vr6 m)) (hout3 (Vr6 m))
    (fun c => arrays_of_held3 c (pdats m 3 c) rfl rfl rfl rfl rfl (Wv6 m c) _ fun _ => rfl)
    fun c => held_of_arrays3 c (pdats m 3 c) rfl rfl rfl rfl rfl (Wv6 m c) (Wv7 m c) _ (arrAt_update m (p := 3) c (Wv6 m c) 5 (fun _ => rfl) (by decide))
      fun b hb => Function.update_of_ne (StableHlo.devRef_ne_of_ne fun e => hb (Finset.mem_image.mpr ⟨5, Finset.mem_univ _, e.symm⟩)) ..

def reg4 :=
  regOf m 4 launch4.win.to₀ launch4.block_pos launch4.stage_whole (Wv8 m) (Wv9 m) (body_obligation4 (Vr8 m)) (fun _ _ => rfl) (fun _ => rfl)
    (hin4 (Vr8 m)) (hout4 (Vr8 m)) (splitW m launch4 (Wv8 m) (fun _ _ => rfl) fun _ _ => rfl) (joinW m launch4 (Wv8 m) fun _ _ => rfl)

def reg5 :=
  regOf m 5 launch5.win.to₀ launch5.block_pos launch5.stage_whole (Wv9 m) (Wv10 m) (body_obligation5 (Vr9 m)) (fun _ _ => rfl) (fun _ => rfl)
    (hin5 (Vr9 m)) (hout5 (Vr9 m)) (splitW m launch5 (Wv9 m) (fun _ _ => rfl) fun _ _ => rfl) (joinW m launch5 (Wv9 m) fun _ _ => rfl)

/-- A stretch of host operations as a segment from the buffers held at `V`. -/
def hostSeg (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op (List.forall_iff_forall_mem.mp hsub op h)) (List.forall_iff_forall_mem.mp hfresh) V Rr

abbrev segsR : List (Pipeline.Seg (pcfgs (F := F)) adm (pdats m) () defs₀ 𝒱r Lr lvr) :=
  [ .region (reg0 m), .host (hostSeg hostOps1 hostOps1_sub hostOps1_fresh (Wv1 m)), .host (hostSeg hostOps1_1 hostOps1_1_sub hostOps1_1_fresh (Wv2 m)),
    .host (hostSeg hostOps1_2 hostOps1_2_sub hostOps1_2_fresh (Wv3 m)), .region (reg1 m), .region (reg2 m), .region (reg3 m),
    .host (hostSeg hostOps4 hostOps4_sub hostOps4_fresh (Wv7 m)), .region (reg4 m), .region (reg5 m),
    .host (hostSeg hostOps6 hostOps6_sub hostOps6_fresh (Wv10 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = Wv11 m c b) :=
  Pipeline.θ_run_regions_kit (pcfgs (F := F)) adm (pdats m) () cellOf_inj emb₁ defs₀ 𝒱r Lr lvr m ρ main (segsR m)
    (fun c Q => by rw [main_chain c, Pipeline.Seg.run_eq_chain]; exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m c) ∗ Rr c))
    (Tₙ := fun c => StableHlo.held (c : Thread nD τ) (Pipeline.ucRefs τ sig) (Wv11 m c))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach Lr lvr fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv11 m c b)
    (hfin := fun c s' => by
      iintro ⟨Hh, HSI⟩
      unfold StableHlo.held
      imodintro
      iapply (pointsTo_read_all (Pipeline.ucRefs τ sig) (fun b => (((c : Thread nD τ)).1, b)) (Wv11 m c) s')
      iframe)
    (hQ := fun s h c => h c)

section Keeps
variable (c : Dev nD)

/-- No item up to the third host stretch writes `a`; nor do regions 1 to 3; nor does any later item. -/
abbrev Quiet4 (a : Ref sig .tc) : Prop :=
  (∀ w, Pipeline.arrRef spec0 w = a → (cfg0.win w).isOut = false) ∧ a ∉ hostOps1_W ∧ a ∉ hostOps1_1_W ∧ a ∉ hostOps1_2_W
abbrev Quiet7 (a : Ref sig .tc) : Prop := Quiet4 a ∧ (∀ w, Pipeline.arrRef spec1 w = a → (cfg1.win w).isOut = false) ∧ a ≠ main_v14 ∧ a ≠ main_v15
abbrev Quiet11 (a : Ref sig .tc) : Prop := Quiet7 a ∧ a ∉ hostOps4_W ∧ (∀ w, Pipeline.arrRef spec4 w = a → (cfg4.win w).isOut = false)
  ∧ (∀ w, Pipeline.arrRef spec5 w = a → (cfg5.win w).isOut = false) ∧ a ∉ hostOps6_W

/-- A buffer nothing has written so far holds its launch contents. -/
theorem arg_at4 (a : Ref sig .tc) (h : Quiet4 a) : Wv4 m c (Proc.devRef .tc a) = m ((c : Thread nD τ).loc a) :=
  (StableHlo.after_of_writes_sub hostOps1_2 _ hostOps1_2_writes h.2.2.2).trans <| (StableHlo.after_of_writes_sub hostOps1_1 _ hostOps1_1_writes h.2.2.1).trans <|
    (StableHlo.after_of_writes_sub hostOps1 _ hostOps1_writes h.2.1).trans (keepW m launch0 c (Wv0 m c) (fun _ => rfl) a h.1)
theorem arg_at7 (a : Ref sig .tc) (h : Quiet7 a) : Wv7 m c (Proc.devRef .tc a) = m ((c : Thread nD τ).loc a) :=
  (Function.update_of_ne (StableHlo.devRef_ne_of_ne h.2.2.2) ..).trans <| (Function.update_of_ne (StableHlo.devRef_ne_of_ne h.2.2.1) ..).trans <|
    (keepW m launch1 c (Wv4 m c) (fun _ => rfl) a h.2.1).trans (arg_at4 m c a h.1)
theorem arg_at11 (a : Ref sig .tc) (h : Quiet11 a) : Wv11 m c (Proc.devRef .tc a) = m ((c : Thread nD τ).loc a) :=
  (StableHlo.after_of_writes_sub hostOps6 _ hostOps6_writes h.2.2.2.2).trans <| (keepW m launch5 c (Wv9 m c) (fun _ => rfl) a h.2.2.2.1).trans <|
    (keepW m launch4 c (Wv8 m c) (fun _ => rfl) a h.2.2.1).trans <| (StableHlo.after_of_writes_sub hostOps4 _ hostOps4_writes h.2.1).trans (arg_at7 m c a h.1)

theorem arg1_at4 : Wv4 m c (Proc.devRef .tc main_arg1) = m ((c : Thread nD τ).loc main_arg1) := arg_at4 m c _ (by decide)
theorem arg1_at5 : Wv5 m c (Proc.devRef .tc main_arg1) = m ((c : Thread nD τ).loc main_arg1) :=
  (keepW m launch1 c (Wv4 m c) (fun _ => rfl) _ (by decide)).trans (arg1_at4 m c)
theorem v12_at5 : Wv5 m c (Proc.devRef .tc main_v12) = Wv4 m c (Proc.devRef .tc main_v12) := keepW m launch1 c (Wv4 m c) (fun _ => rfl) _ (by decide)
theorem v12_at6 : Wv6 m c (Proc.devRef .tc main_v12) = Wv4 m c (Proc.devRef .tc main_v12) :=
  (Function.update_of_ne (StableHlo.devRef_ne_of_ne (by decide)) ..).trans (v12_at5 m c)
theorem v13_at6 : Wv6 m c (Proc.devRef .tc main_v13) = Wv5 m c (Proc.devRef .tc main_v13) := Function.update_of_ne (StableHlo.devRef_ne_of_ne (by decide)) ..
theorem v14_at8 : Wv8 m c (Proc.devRef .tc main_v14) = Wv6 m c (Proc.devRef .tc main_v14) :=
  (StableHlo.after_of_writes_sub hostOps4 _ hostOps4_writes (by decide)).trans (Function.update_of_ne (StableHlo.devRef_ne_of_ne (by decide)) ..)
theorem v15_at9 : Wv9 m c (Proc.devRef .tc main_v15) = Wv7 m c (Proc.devRef .tc main_v15) :=
  (keepW m launch4 c (Wv8 m c) (fun _ => rfl) _ (by decide)).trans (StableHlo.after_of_writes_sub hostOps4 _ hostOps4_writes (by decide))
theorem v17_at9 : Wv9 m c (Proc.devRef .tc main_v17) = Wv8 m c (Proc.devRef .tc main_v17) := keepW m launch4 c (Wv8 m c) (fun _ => rfl) _ (by decide)
theorem v19_at9 : Wv9 m c (Proc.devRef .tc main_v19) = Wv8 m c (Proc.devRef .tc main_v19) := keepW m launch4 c (Wv8 m c) (fun _ => rfl) _ (by decide)
theorem v20_at10 : Wv10 m c (Proc.devRef .tc main_v20) = Wv9 m c (Proc.devRef .tc main_v20) := keepW m launch5 c (Wv9 m c) (fun _ => rfl) _ (by decide)
theorem arg0_at11 : Wv11 m c (Proc.devRef .tc main_arg0) = m ((c : Thread nD τ).loc main_arg0) := arg_at11 m c _ (by decide)
theorem arg1_at11 : Wv11 m c (Proc.devRef .tc main_arg1) = m ((c : Thread nD τ).loc main_arg1) := arg_at11 m c _ (by decide)
theorem arg2_at11 : Wv11 m c (Proc.devRef .tc main_arg2) = m ((c : Thread nD τ).loc main_arg2) := arg_at11 m c _ (by decide)
theorem arg3_at11 : Wv11 m c (Proc.devRef .tc main_arg3) = m ((c : Thread nD τ).loc main_arg3) := arg_at11 m c _ (by decide)
theorem arg4_at11 : Wv11 m c (Proc.devRef .tc main_arg4) = m ((c : Thread nD τ).loc main_arg4) := arg_at11 m c _ (by decide)
theorem arg5_at11 : Wv11 m c (Proc.devRef .tc main_arg5) = m ((c : Thread nD τ).loc main_arg5) := arg_at11 m c _ (by decide)
theorem arg0_at8 : Wv8 m c (Proc.devRef .tc main_arg0) = m ((c : Thread nD τ).loc main_arg0) :=
  (StableHlo.after_of_writes_sub hostOps4 _ hostOps4_writes (by decide)).trans (arg_at7 m c _ (by decide))
theorem arg0_at9 : Wv9 m c (Proc.devRef .tc main_arg0) = m ((c : Thread nD τ).loc main_arg0) :=
  (keepW m launch4 c (Wv8 m c) (fun _ => rfl) _ (by decide)).trans (arg0_at8 m c)
theorem arg2_at7 : Wv7 m c (Proc.devRef .tc main_arg2) = m ((c : Thread nD τ).loc main_arg2) := arg_at7 m c _ (by decide)
theorem arg3_at7 : Wv7 m c (Proc.devRef .tc main_arg3) = m ((c : Thread nD τ).loc main_arg3) := arg_at7 m c _ (by decide)
theorem arg4_at7 : Wv7 m c (Proc.devRef .tc main_arg4) = m ((c : Thread nD τ).loc main_arg4) := arg_at7 m c _ (by decide)
theorem arg5_at7 : Wv7 m c (Proc.devRef .tc main_arg5) = m ((c : Thread nD τ).loc main_arg5) := arg_at7 m c _ (by decide)

end Keeps

theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (arg0_at11 m c), (h c _ (mem_uc main_arg1 (by decide))).trans (arg1_at11 m c),
     (h c _ (mem_uc main_arg2 (by decide))).trans (arg2_at11 m c), (h c _ (mem_uc main_arg3 (by decide))).trans (arg3_at11 m c),
     (h c _ (mem_uc main_arg4 (by decide))).trans (arg4_at11 m c), (h c _ (mem_uc main_arg5 (by decide))).trans (arg5_at11 m c)⟩) (run_main m ρ)

end Cert.KernelIdeal.Gen

end
-- ==== Proof.Spec.lean ====
import Mathlib.Algebra.BigOperators.Group.Finset.Basic
import Mathlib.Data.Fintype.BigOperators
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

-- The constants 1, ½ and ¼ as both programs spell them.
abbrev cOne : EReal := Ideal.ofBits .f32 0x3F800000#32
abbrev cHalf : EReal := Ideal.ofBits .f32 0x3F000000#32
abbrev cQuarter : EReal := Ideal.ofBits .f32 0x3E800000#32

-- A rank-2 array read as a function of its two coordinates.
abbrev m2 {a b : Nat} (x : (⟨2, ![a, b]⟩ : Shape).Idx → EReal) : Fin a → Fin b → EReal := fun i j => x (ix2 i j)

variable {n f o : Nat}

-- The matrix with its diagonal replaced by zero.
def offd (A : Fin n → Fin n → EReal) (i j : Fin n) : EReal := if i = j then 0 else A i j

-- Row sum plus column sum of the off-diagonal part.
def deg (A : Fin n → Fin n → EReal) (i : Fin n) : EReal := (∑ j, offd A i j) + ∑ j, offd A j i

-- The inverse degree, zero where the degree is zero.
def dinv (A : Fin n → Fin n → EReal) (i : Fin n) : EReal :=
  Scalar.select (Ideal.cmp .oeq (deg A i) 0) (0 : EReal) (Ideal.div cOne (deg A i))

-- The transition matrix: row `i` of the off-diagonal part scaled by `d i`.
def Pm (A : Fin n → Fin n → EReal) (d : Fin n → EReal) (i j : Fin n) : EReal := d i * offd A i j

-- Two diffusion steps: ½·P + ¼·P·P.
def Km (A : Fin n → Fin n → EReal) (d : Fin n → EReal) (i j : Fin n) : EReal :=
  cHalf * Pm A d i j + cQuarter * ∑ k, Pm A d i k * Pm A d k j

-- Aggregate along `K`, apply the weights, add the bias, clamp at zero.
def upd (K : Fin n → Fin n → EReal) (x : Fin n → Fin f → EReal) (wt : Fin f → Fin o → EReal) (b : Fin o → EReal)
    (i : Fin n) (q : Fin o) : EReal :=
  max ((∑ l, (∑ j, K i j * x j l) * wt l q) + b q) 0

-- The result: the update along `A` plus the update along its transpose, both with the degrees of `A`.
def res (x : Fin n → Fin f → EReal) (A : Fin n → Fin n → EReal) (wt1 : Fin f → Fin o → EReal) (b1 : Fin o → EReal)
    (wt2 : Fin f → Fin o → EReal) (b2 : Fin o → EReal) (i : Fin n) (q : Fin o) : EReal :=
  upd (Km A (dinv A)) x wt1 b1 i q + upd (Km (fun i j => A j i) (dinv A)) x wt2 b2 i q

-- Transposing exchanges row sums and column sums, so the degrees stay.
theorem dinv_transpose (A : Fin n → Fin n → EReal) : dinv (fun i j => A j i) = dinv A := by
  funext i
  have h : deg (fun i j => A j i) i = deg A i := by
    unfold deg offd
    rw [add_comm]
    congr 1 <;> exact Finset.sum_congr rfl fun j _ => by by_cases h : i = j <;> simp [h, eq_comm]
  unfold dinv; rw [h]

end Cert.Spec

end
-- ==== Proof.KI.HostVal.lean ====
import proofs.«106325_j17265768530288_1_alg».proof.Proof.Gen.KernelIdeal.Launch
import proofs.«106325_j17265768530288_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.ShloMosaic.StableHlo Idealize.ShloMosaic.ValueIdx Cert.Spec

def hv_deg (r0 : Vec Ideal S4096x128 .f32) (c0 : Vec Ideal S8x4096 .f32) : FVec Ideal S4096 .f32 :=
  addf (shapeCast S4096 (extractStridedSlice S4096x1 ![0, 0] r0 slices_S4096x128_S4096x1_0_0) shapeCasts_S4096x1_S4096)
    (shapeCast S4096 (extractStridedSlice S1x4096 ![0, 0] c0 slices_S8x4096_S1x4096_0_0) shapeCasts_S1x4096_S4096)

def hv_dinv (r0 : Vec Ideal S4096x128 .f32) (c0 : Vec Ideal S8x4096 .f32) : FVec Ideal S4096x128 .f32 :=
  broadcastInDim S4096x128 ![0, 1] bcast_S4096x1_S4096x128_0_1 (broadcastInDim S4096x1 ![0] bcast_S4096_S4096x1_0
    (select (cmpf .oeq (hv_deg r0 c0) (broadcastInDim S4096 ![] bcast_S_S4096 (constant (F := Ideal) S_ .f32 0x00000000#32)))
      (broadcastInDim S4096 ![] bcast_S_S4096 (id (constant (F := Ideal) S_ .f32 0x00000000#32)))
      (Host.divf (F := Ideal) (broadcastInDim S4096 ![] bcast_S_S4096 (constant (F := Ideal) S_ .f32 0x3F800000#32)) (hv_deg r0 c0))))

theorem hv_v12_of (W : Valuation τ sig (Elt Ideal)) :
    (StableHlo.after hostOps1_2 (StableHlo.after hostOps1_1 (StableHlo.after hostOps1 W)) (Proc.devRef .tc main_v12) : S4096x128.Idx → EReal)
      = hv_dinv (W (Proc.devRef .tc main_v0_0)) (W (Proc.devRef .tc main_v0_1)) := by
  dsimp only [hostOps1, hostOps1_1, hostOps1_2]
  after_results
  rfl

theorem hv_deg_apply (r0 : Vec Ideal S4096x128 .f32) (c0 : Vec Ideal S8x4096 .f32) (i : Fin 4096) :
    hv_deg r0 c0 (ix1 i) = r0 (ix2 i 0) + c0 (ix2 0 i) := by
  unfold hv_deg
  show shapeCast S4096 _ shapeCasts_S4096x1_S4096 (ix1 i) + shapeCast S4096 _ shapeCasts_S1x4096_S4096 (ix1 i) = _
  rw [shapeCast_apply _ shapeCasts_S4096x1_S4096 (ix1 i) (ix2 i 0) (by rw [Shape.rowMajor_val_two, Shape.rowMajor_val_one]; show i.val * 1 + 0 = i.val; omega),
    shapeCast_apply _ shapeCasts_S1x4096_S4096 (ix1 i) (ix2 0 i) (by rw [Shape.rowMajor_val_two, Shape.rowMajor_val_one]; show 0 * 4096 + i.val = i.val; omega),
    extractStridedSlice_apply _ r0 slices_S4096x128_S4096x1_0_0 (ix2 i 0) (ix2 i 0) (fun a => match a with | ⟨0, _⟩ => by simp | ⟨1, _⟩ => by simp),
    extractStridedSlice_apply _ c0 slices_S8x4096_S1x4096_0_0 (ix2 0 i) (ix2 0 i) (fun a => match a with | ⟨0, _⟩ => by simp | ⟨1, _⟩ => by simp)]

theorem hv_dinv_apply (r0 : Vec Ideal S4096x128 .f32) (c0 : Vec Ideal S8x4096 .f32) (i : Fin 4096) (l : Fin 128) :
    hv_dinv r0 c0 (ix2 i l)
      = Scalar.select (Ideal.cmp .oeq (r0 (ix2 i 0) + c0 (ix2 0 i)) 0) (0 : EReal) (Ideal.div cOne (r0 (ix2 i 0) + c0 (ix2 0 i))) := by
  unfold hv_dinv
  rw [broadcastInDim_apply _ bcast_S4096x1_S4096x128_0_1 _ (ix2 i l) (ix2 i 0) (fun a => match a with
      | ⟨0, _⟩ => by show i.val = if (4096 : Nat) = 1 then 0 else i.val; rw [if_neg (by decide)]
      | ⟨1, _⟩ => by show 0 = if (1 : Nat) = 1 then 0 else l.val; rw [if_pos rfl]),
    broadcastInDim_apply _ bcast_S4096_S4096x1_0 _ (ix2 i 0) (ix1 i) (fun a => match a with
      | ⟨0, _⟩ => by show i.val = if (4096 : Nat) = 1 then 0 else i.val; rw [if_neg (by decide)])]
  show Scalar.select (FloatOps.cmpf .oeq (hv_deg r0 c0 (ix1 i)) _) _ (FloatOps.hostDivf _ (hv_deg r0 c0 (ix1 i))) = _
  simp only [hv_deg_apply, broadcastInDim_apply _ bcast_S_S4096 _ (ix1 i) ix0 (fun a => a.elim0), Ideal.cmpf_def, Ideal.hostDivf_def, id, constant,
    Ideal.ofBits_zero_f32, Ideal.ofBits_def]

theorem hv_v16_of (W : Valuation τ sig (Elt Ideal)) :
    (StableHlo.after hostOps4 W (Proc.devRef .tc main_v16) : S128x128.Idx → EReal)
      = transpose S128x128 [1, 0] (W (Proc.devRef .tc main_arg2)) transposes_S128x128_S128x128_1_0 := by
  dsimp only [hostOps4]; after_results
theorem hv_v17_of (W : Valuation τ sig (Elt Ideal)) :
    (StableHlo.after hostOps4 W (Proc.devRef .tc main_v17) : S128x128.Idx → EReal)
      = transpose S128x128 [1, 0] (W (Proc.devRef .tc main_arg4)) transposes_S128x128_S128x128_1_0 := by
  dsimp only [hostOps4]; after_results
theorem hv_v18_of (W : Valuation τ sig (Elt Ideal)) :
    (StableHlo.after hostOps4 W (Proc.devRef .tc main_v18) : S1x128.Idx → EReal)
      = shapeCast S1x128 (W (Proc.devRef .tc main_arg3) : S128.Idx → EReal) shapeCasts_S128_S1x128 := by
  dsimp only [hostOps4]; after_results; rfl
theorem hv_v19_of (W : Valuation τ sig (Elt Ideal)) :
    (StableHlo.after hostOps4 W (Proc.devRef .tc main_v19) : S1x128.Idx → EReal)
      = shapeCast S1x128 (W (Proc.devRef .tc main_arg5) : S128.Idx → EReal) shapeCasts_S128_S1x128 := by
  dsimp only [hostOps4]; after_results; rfl

theorem hv_T_apply (x : S128x128.Idx → EReal) (l q : Fin 128) :
    transpose S128x128 [1, 0] x transposes_S128x128_S128x128_1_0 (ix2 l q) = x (ix2 q l) :=
  transpose_ix2_apply x _ l q

theorem hv_row_apply (x : S128.Idx → EReal) (q : Fin 128) :
    shapeCast S1x128 x shapeCasts_S128_S1x128 (ix2 0 q) = x (ix1 q) :=
  shapeCast_a_1a_apply x _ 0 q

theorem hv_v22_of (W : Valuation τ sig (Elt Ideal)) :
    (StableHlo.after hostOps6 W (Proc.devRef .tc main_v22) : S4096x128.Idx → EReal)
      = (addf (F := Ideal) (s := S4096x128) (φ := .f32) (W (Proc.devRef .tc main_v20)) (W (Proc.devRef .tc main_v21)) : S4096x128.Idx → EReal) := by
  dsimp only [hostOps6]; after_results

end Cert.KernelIdeal.Gen

end
-- ==== Proof.LibRowReduce.lean ====
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

-- A sum over the columns of a rank-2 vector, at row `r`: the sum of that row's entries.
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (funext fun c => Fin.ext (by fin_cases c <;> rfl))

end Idealize.ShloMosaic.RowReduce

end
-- ==== Proof.LibSums.lean ====
import Mathlib.Algebra.BigOperators.Fin
import Mathlib.Algebra.BigOperators.Group.Finset.Basic
import Mathlib.Data.Fintype.BigOperators
import Mathlib.Logic.Equiv.Fin.Basic
import Mathlib.Tactic.Ring
import Idealize.ShloMosaic.Lib.ValueIdx
import Idealize.ShloMosaic.Lib.Pipeline.Value

open scoped BigOperators

namespace Cert.Hand

variable {M : Type*} [AddCommMonoid M]

-- Rows taken block by block: row `bs·s + b` is row `b` of block `s`, by the row-major pairing of `Fin nb × Fin bs`.
theorem sum_blocks_fin {N : Nat} (nb bs : Nat) (e : N = nb * bs) (f : Fin N → M) :
    ∑ k : Fin N, f k = ∑ s : Fin nb, ∑ b : Fin bs,
      f ⟨bs * s.val + b.val, by
        have hs := s.isLt; have hb := b.isLt
        calc bs * s.val + b.val < bs * s.val + bs := by omega
          _ = bs * (s.val + 1) := by ring
          _ ≤ bs * nb := Nat.mul_le_mul_left _ hs
          _ = N := by rw [e, Nat.mul_comm]⟩ := by
  subst e
  rw [← Equiv.sum_comp finProdFinEquiv f, Fintype.sum_prod_type]
  exact Finset.sum_congr rfl fun s _ => Finset.sum_congr rfl fun b _ => congrArg f (Fin.ext (Nat.add_comm _ _))

-- An accumulator that restarts at every fourth point and adds `p n` at point `n` holds the sum of its run so far.
theorem acc_run4 {N : ℕ} (acc : (n : ℕ) → n < N → M) (p : ℕ → M)
    (h0 : ∀ n h, n % 4 = 0 → acc n h = p n)
    (hs : ∀ n (h : n + 1 < N), ¬(n + 1) % 4 = 0 → acc (n + 1) h = acc n (Nat.lt_of_succ_lt h) + p (n + 1)) :
    ∀ n h, acc n h = ∑ s ∈ Finset.range (n % 4 + 1), p (n - n % 4 + s)
  | 0, h => (h0 0 h rfl).trans (Finset.sum_range_one _).symm
  | n + 1, h => by
    by_cases h4 : (n + 1) % 4 = 0
    · rw [h0 _ h h4, h4, Finset.sum_range_one]; rfl
    · have e1 : (n + 1) % 4 = n % 4 + 1 := by omega
      have e2 : n + 1 - (n + 1) % 4 = n - n % 4 := by omega
      have e3 : n - n % 4 + (n % 4 + 1) = n + 1 := by omega
      rw [hs n h h4, e2, e1, Finset.sum_range_succ, e3, acc_run4 acc p h0 hs n]

-- Four column tiles of width `B`, one added per point: after the fourth the accumulator is the product over all `4·B` columns.
theorem acc_tiles4 [Mul M] {N B C : ℕ} (e : C = 4 * B) (acc : (n : ℕ) → n < N → M)
    (kb xb : (n : ℕ) → n < N → Fin B → M) (K x : Fin C → M)
    (h0 : ∀ n h, n % 4 = 0 → acc n h = ∑ kk, kb n h kk * xb n h kk)
    (hs : ∀ n (h : n + 1 < N), ¬(n + 1) % 4 = 0 →
      acc (n + 1) h = acc n (Nat.lt_of_succ_lt h) + ∑ kk, kb (n + 1) h kk * xb (n + 1) h kk)
    (t : ℕ) (ht : t < N) (h3 : t % 4 = 3)
    (hk : ∀ n h (kk : Fin B) (j : Fin C), n / 4 = t / 4 → j.val = B * (n % 4) + kk.val → kb n h kk = K j)
    (hx : ∀ n h (kk : Fin B) (j : Fin C), j.val = B * (n % 4) + kk.val → xb n h kk = x j) :
    acc t ht = ∑ j : Fin C, K j * x j := by
  have hp : ∀ n (h : n < N), (if h : n < N then ∑ kk, kb n h kk * xb n h kk else 0) = ∑ kk, kb n h kk * xb n h kk :=
    fun n h => dif_pos h
  rw [acc_run4 acc (fun n => if h : n < N then ∑ kk, kb n h kk * xb n h kk else 0)
      (fun n h e => (h0 n h e).trans (hp n h).symm)
      (fun n h e => (hs n h e).trans (congrArg _ (hp (n + 1) h).symm)) t ht,
    h3, Finset.sum_range, sum_blocks_fin 4 B e fun j => K j * x j]
  refine Finset.sum_congr rfl fun s _ => ?_
  have hs' := s.isLt
  have hlt : t - 3 + s.val < N := by omega
  have e4 : (t - 3 + s.val) % 4 = s.val := by omega
  refine (hp _ hlt).trans (Finset.sum_congr rfl fun kk _ => ?_)
  refine congrArg₂ (· * ·) (hk _ hlt kk _ (by omega) ?_) (hx _ hlt kk _ ?_) <;> rw [e4]

end Cert.Hand
-- ==== Proof.LibBlockOps.lean ====
import Idealize.ShloMosaic.Lib.ValueIdx
import Idealize.ShloMosaic.Lib.Pipeline.Value
import Idealize.ShloMosaic.Lib.ValueLayout
import Idealize.ShloMosaic.Lib.Affine

open Idealize.ShloMosaic

namespace Cert.Hand

variable {α : Type}

-- Two numbers below `2 ^ 32` are equal exactly when their 32-bit words are.
theorem select_cmpi_eq_ofNat (i k : Nat) (hi : i < 2 ^ 32) (hk : k < 2 ^ 32) (a b : α) :
    Scalar.select (IntOp.cmpi .eq (BitVec.ofNat 32 i) (BitVec.ofNat 32 k)) a b = if i = k then a else b :=
  if_congr (IntOp.cmpi_eq.trans (by
    rw [← BitVec.toNat_inj, BitVec.toNat_ofNat, BitVec.toNat_ofNat, Nat.mod_eq_of_lt hi, Nat.mod_eq_of_lt hk])) rfl rfl

end Cert.Hand
-- ==== Proof.KI.V0.lean ====
import proofs.«106325_j17265768530288_1_alg».proof.Proof.KI.R0
import proofs.«106325_j17265768530288_1_alg».proof.Proof.LibRowReduce
import proofs.«106325_j17265768530288_1_alg».proof.Proof.LibSums
import proofs.«106325_j17265768530288_1_alg».proof.Proof.LibBlockOps
import Idealize.ShloMosaic.PureOps.Ideal.Laws
import proofs.«106325_j17265768530288_1_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx
open scoped BigOperators

variable (V : (c : Dev nD) → (b : Ref sig .tc) → Buf (Elt Ideal) ((c : Thread nD τ).loc b))

theorem v0_word (t r : Nat) :
    IntOp.addi (Scalar.muli (BitVec.ofNat 32 t) 512#32) (BitVec.ofNat 32 r) = BitVec.ofNat 32 (512 * t + r) := by
  unfold Scalar.muli IntOp.muli IntOp.addi
  rw [BitVec.ofNat_add, BitVec.ofNat_mul, BitVec.mul_comm]

-- The loaded tile with zero where the global row number 512·t + r equals the column number.
theorem v0_pay1 (i : grid0.Coords) (x : Vec Ideal S512x4096 .f32) (r : Fin 512) (k : Fin 4096) :
    (k0_pay1 i x : S512x4096.Idx → EReal) (ix2 r k)
      = if 512 * (i 0).val + r.val = k.val then 0 else (x : S512x4096.Idx → EReal) (ix2 r k) := by
  have hi : (i 0).val < 8 := (i 0).isLt
  show Scalar.select (IntOp.cmpi .eq (IntOp.addi (Scalar.muli (BitVec.ofNat 32 (i 0).val) 512#32) (iota .tc S512x4096 32 [0] _ (ix2 r k)))
      (iota .tc S512x4096 32 [1] _ (ix2 r k))) (Ideal.ofBits .f32 0x00000000#32) ((x : S512x4096.Idx → EReal) (ix2 r k)) = _
  rw [iota_single_apply, iota_single_apply]
  show Scalar.select (IntOp.cmpi .eq (IntOp.addi _ (BitVec.ofNat 32 r.val)) (BitVec.ofNat 32 k.val)) _ _ = _
  rw [v0_word, Cert.Hand.select_cmpi_eq_ofNat _ _ (by have := r.isLt; omega) (by have := k.isLt; omega), Ideal.ofBits_zero_f32]

theorem v0_lift_col {R D : Nat} (h : (⟨2, ![R, D]⟩ : Shape).Reduces [0] (⟨1, ![D]⟩ : Shape)) (j : Fin D)
    (r : Fin ((⟨2, ![R, D]⟩ : Shape).size 0)) : h.lift (ix1 j) r = ix2 (⟨r.val, r.isLt⟩ : Fin R) j := by
  funext c; apply Fin.ext
  fin_cases c <;> rfl

-- Adding up along the rows leaves, at column j, the sum of that column.
theorem v0_colsum {R D : Nat} (x : FVec Ideal ⟨2, ![R, D]⟩ .f32) (acc : BitVec FTy.f32.bits)
    (h : (⟨2, ![R, D]⟩ : Shape).Reduces [0] (⟨1, ![D]⟩ : Shape)) (hφ : FKind.Formats .f32)
    (hacc : acc = FKind.add.neutral .f32 hφ) (j : Fin D) :
    multiReduction .add [0] ⟨1, ![D]⟩ x acc h hφ hacc (ix1 j) = ∑ r : Fin R, x (ix2 r j) := by
  rw [Ideal.multiReduction_add_single]
  exact Finset.sum_congr rfl fun r _ => congrArg x (v0_lift_col h j r)

-- The row sums, kept as a column and repeated over the lanes.
theorem v0_pay2 (i : grid0.Coords) (x : Vec Ideal S512x4096 .f32) (r : Fin 512) (l : Fin 128) :
    (k0_pay2 i x : S512x128.Idx → EReal) (ix2 r l) = ∑ k : Fin 4096, (k0_pay1 i x : S512x4096.Idx → EReal) (ix2 r k) := by
  unfold k0_pay2
  exact (broadcastTo_apply _ _ (ix2 r l) (ix2 r (0 : Fin 1)) (fun a => by match a with | ⟨0, _⟩ => rfl | ⟨1, _⟩ => rfl)).trans
    ((congrFun (shapeCast_self _ _) _).trans ((shapeCast_apply _ _ (ix2 r (0 : Fin 1)) (ix1 r) (by
      rw [Shape.rowMajor_val_one, Shape.rowMajor_val_two]
      show r.val = r.val * 1 + 0
      omega)).trans (RowReduce.multiReduction_add_row _ _ _ _ _ r)))

theorem v0_pay3 (u : Fin 8) (j : Fin 4096) : (k0_pay3 (F := Ideal) : S8x4096.Idx → EReal) (ix2 u j) = 0 := by
  unfold k0_pay3
  rw [shapeCast_self]
  exact Ideal.ofBits_zero_f32

-- The column sums, kept as a row, repeated over the sublanes and added to the carried tile.
theorem v0_pay4 (i : grid0.Coords) (x : Vec Ideal S512x4096 .f32) (v : Vec Ideal S8x4096 .f32) (u : Fin 8) (j : Fin 4096) :
    (k0_pay4 i x v : S8x4096.Idx → EReal) (ix2 u j)
      = (v : S8x4096.Idx → EReal) (ix2 u j) + ∑ r : Fin 512, (k0_pay1 i x : S512x4096.Idx → EReal) (ix2 r j) := by
  unfold k0_pay4
  exact (congrFun (shapeCast_self _ _) _).trans (congrArg ((v : S8x4096.Idx → EReal) (ix2 u j) + ·)
    ((broadcastTo_1b_ab_apply _ _ u j).trans ((congrFun (shapeCast_self _ _) _).trans
      ((shapeCast_a_1a_apply _ _ (0 : Fin 1) j).trans (v0_colsum _ _ _ _ _ j)))))

abbrev v0_A (c : Dev nD) : Fin 4096 → Fin 4096 → EReal := fun i j => (V c main_arg1 : S4096x4096.Idx → EReal) (ix2 i j)

theorem v0_idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ ((grid0.coords t) 0).val = t.val := by
  decide +kernel

theorem v0_ab_apply (c : Dev nD) (t : Fin cfg0.N) (r : Fin 512) (k : Fin 4096) (i : Fin 4096) (hi : i.val = 512 * t.val + r.val) :
    (ab0 V c t : S512x4096.Idx → EReal) (ix2 r k) = v0_A V c i k := by
  obtain ⟨e0, e1, -⟩ := v0_idx_facts t
  refine congrArg (V c main_arg1 : S4096x4096.Idx → EReal) (Shape.idx_ext₂ ?_ ?_)
  · show win0_0.index t (0 : Fin 2) * 512 + 1 * r.val = i.val; omega
  · show win0_0.index t (1 : Fin 2) * 4096 + 1 * k.val = k.val; omega

-- The masked tile at point t is the off-diagonal part of the matrix on rows 512·t … 512·t + 511.
theorem v0_masked (c : Dev nD) (t : Fin cfg0.N) (r : Fin 512) (k : Fin 4096) (i : Fin 4096) (hi : i.val = 512 * t.val + r.val) :
    (k0_pay1 (grid0.coords t) (ab0 V c t) : S512x4096.Idx → EReal) (ix2 r k) = offd (v0_A V c) i k := by
  obtain ⟨-, -, -, -, -, -, e6⟩ := v0_idx_facts t
  rw [v0_pay1, e6, v0_ab_apply V c t r k i hi]
  exact if_congr (by rw [Fin.ext_iff, hi]) rfl rfl

abbrev v0_G1 (c : Dev nD) : S4096x128.Idx → EReal := fun i => ∑ j : Fin 4096, offd (v0_A V c) (i 0) j

theorem v0_flushed1_eq (c : Dev nD) (t : Fin cfg0.N) :
    (dat0 (F := Ideal) V c).flushed 1 t = ((cfg0.win 1).blk t).view.read (Elt Ideal) (v0_G1 V c) := by
  obtain ⟨-, -, e2, e3, -⟩ := v0_idx_facts t
  funext y
  obtain ⟨r, l, rfl⟩ : ∃ (r : Fin 512) (l : Fin 128), y = ix2 r l := ⟨y 0, y 1, eq_ix2 y⟩
  refine (v0_pay2 (grid0.coords t) (ab0 V c t) r l).trans (Finset.sum_congr rfl fun k _ => v0_masked V c t r k _ ?_)
  show win0_1.index t (0 : Fin 2) * 512 + 1 * r.val = _; omega

theorem v0_cover1 (i : S4096x128.Idx) : ∃ t : Fin cfg0.N, (cfg0.win 1).flush t = true ∧ i ∈ ((cfg0.win 1).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨_, by omega⟩, rfl⟩
  obtain ⟨-, -, e2, e3, -⟩ := v0_idx_facts t
  refine ⟨t, flush0_1 t, ?_⟩
  show i ∈ ((View.whole main_v0_0).slice (win0_1.rect t)).set
  rw [View.set_slice_whole, Rect.mem_set_unit]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 128 ≤ (i 1).val ∧ (i 1).val < win0_1.index t (1 : Fin 2) * 128 + 128; omega

theorem final0_rows (c : Dev nD) (i : Fin 4096) (l : Fin 128) :
    ((dat0 (F := Ideal) V c).arrAt 1 cfg0.N : S4096x128.Idx → EReal) (ix2 i l)
      = ∑ j : Fin 4096, offd (fun i j => (V c main_arg1 : S4096x4096.Idx → EReal) (ix2 i j)) i j :=
  congrFun ((dat0 (F := Ideal) V c).arrAt_eq_of_cover 1 (v0_G1 V c) (fun t _ => v0_flushed1_eq V c t) v0_cover1) (ix2 i l)

-- The sum of column j of the off-diagonal part over row tile s (zero past the eighth tile).
def v0_B (A : Fin 4096 → Fin 4096 → EReal) (j : Fin 4096) (s : ℕ) : EReal :=
  if h : s < 8 then ∑ r : Fin 512, offd A ⟨512 * s + r.val, by have := r.isLt; omega⟩ j else 0

theorem v0_colblk (c : Dev nD) (t : Fin cfg0.N) (j : Fin 4096) :
    ∑ r : Fin 512, (k0_pay1 (grid0.coords t) (ab0 V c t) : S512x4096.Idx → EReal) (ix2 r j) = v0_B (v0_A V c) j t.val := by
  unfold v0_B
  rw [dif_pos (Nat.lt_of_lt_of_eq t.isLt N_0)]
  exact Finset.sum_congr rfl fun r _ => v0_masked V c t r j _ rfl

-- The carried tile after point n holds the sums over the row tiles 0 … n, by induction on n.
theorem v0_acc (c : Dev nD) (u : Fin 8) (j : Fin 4096) : ∀ (n : ℕ) (hn : n < cfg0.N),
    (acc0 V c n hn : S8x4096.Idx → EReal) (ix2 u j) = ∑ s ∈ Finset.range (n + 1), v0_B (v0_A V c) j s
  | 0, hn => by
    refine (v0_pay4 _ _ _ u j).trans ?_
    rw [v0_pay3, zero_add, Finset.sum_range_one]
    exact v0_colblk V c ⟨0, hn⟩ j
  | n + 1, hn => by
    refine (v0_pay4 _ _ _ u j).trans ?_
    rw [Finset.sum_range_succ _ (n + 1), v0_acc c u j n (Nat.lt_of_succ_lt hn)]
    exact congrArg _ (v0_colblk V c ⟨n + 1, hn⟩ j)

theorem v0_sum_tiles (A : Fin 4096 → Fin 4096 → EReal) (j : Fin 4096) :
    ∑ s ∈ Finset.range 8, v0_B A j s = ∑ i : Fin 4096, offd A i j := by
  rw [Finset.sum_range, Cert.Hand.sum_blocks_fin 8 512 rfl (fun i => offd A i j)]
  exact Finset.sum_congr rfl fun s _ => by unfold v0_B; rw [dif_pos s.isLt]

abbrev v0_G2 (c : Dev nD) : S8x4096.Idx → EReal := fun i => ∑ r : Fin 4096, offd (v0_A V c) r (i 1)

theorem v0_flushed2_eq (c : Dev nD) (t : Fin cfg0.N) (hf : (cfg0.win 2).flush t = true) :
    (dat0 (F := Ideal) V c).flushed 2 t = ((cfg0.win 2).blk t).view.read (Elt Ideal) (v0_G2 V c) := by
  have ht : t.val < 8 := Nat.lt_of_lt_of_eq t.isLt N_0
  have h7 : t.val = 7 := by have := (flush0_2 t).mp hf; omega
  obtain ⟨-, -, -, -, e4, e5, -⟩ := v0_idx_facts t
  funext y
  obtain ⟨u, j, rfl⟩ : ∃ (u : Fin 8) (j : Fin 4096), y = ix2 u j := ⟨y 0, y 1, eq_ix2 y⟩
  have hemb : (((cfg0.win 2).blk t).view.emb (ix2 u j)) 1 = j :=
    Fin.ext (show win0_2.index t (1 : Fin 2) * 4096 + 1 * j.val = j.val by omega)
  show (dat0 V c).after 2 t (ix2 u j) = ∑ r : Fin 4096, offd (v0_A V c) r ((((cfg0.win 2).blk t).view.emb (ix2 u j)) 1)
  rw [hemb, after0_2, v0_acc V c u j t.val t.isLt, h7]
  exact v0_sum_tiles (v0_A V c) j

theorem v0_cover2 (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have h7 : 7 < cfg0.N := Nat.lt_of_lt_of_eq (by omega : 7 < 8) N_0.symm
  obtain ⟨-, -, -, -, e4, e5, -⟩ := v0_idx_facts ⟨7, h7⟩
  refine ⟨⟨7, h7⟩, (flush0_2 ⟨7, h7⟩).mpr rfl, ?_⟩
  show i ∈ ((View.whole main_v0_1).slice (win0_2.rect ⟨7, h7⟩)).set
  rw [View.set_slice_whole, Rect.mem_set_unit]
  intro a
  match a with
  | ⟨0, _⟩ => show win0_2.index ⟨7, h7⟩ (0 : Fin 2) * 8 ≤ (i 0).val ∧ (i 0).val < win0_2.index ⟨7, h7⟩ (0 : Fin 2) * 8 + 8; omega
  | ⟨1, _⟩ => show win0_2.index ⟨7, h7⟩ (1 : Fin 2) * 4096 ≤ (i 1).val ∧ (i 1).val < win0_2.index ⟨7, h7⟩ (1 : Fin 2) * 4096 + 4096; omega

theorem final0_cols (c : Dev nD) (u : Fin 8) (j : Fin 4096) :
    ((dat0 (F := Ideal) V c).arrAt 2 cfg0.N : S8x4096.Idx → EReal) (ix2 u j)
      = ∑ i : Fin 4096, offd (fun i j => (V c main_arg1 : S4096x4096.Idx → EReal) (ix2 i j)) i j :=
  congrFun ((dat0 (F := Ideal) V c).arrAt_eq_of_cover 2 (v0_G2 V c) (v0_flushed2_eq V c) v0_cover2) (ix2 u j)

end Cert.KernelIdeal.Gen

end
-- ==== Proof.KI.V1.lean ====
import proofs.«106325_j17265768530288_1_alg».proof.Proof.KI.R1
import proofs.«106325_j17265768530288_1_alg».proof.Proof.LibStore
import proofs.«106325_j17265768530288_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable (V : (c : Dev nD) → (b : Ref sig .tc) → Buf (Elt Ideal) ((c : Thread nD τ).loc b))

theorem v1_pay (x0 : Vec Ideal S1024x1024 .f32) (p q : Fin 1024) :
    (k1_pay1 x0 : S1024x1024.Idx → EReal) (ix2 p q) = (x0 : S1024x1024.Idx → EReal) (ix2 q p) := by
  unfold k1_pay1
  show transpose S1024x1024 [1, 0] x0 _ (ix2 p q) = _
  exact transpose_apply _ _ _ (ix2 p q) (ix2 q p) (fun b => by match b with | ⟨0, _⟩ => rfl | ⟨1, _⟩ => rfl)

-- The input tile (a, b) goes with the output tile (b, a).
theorem v1_idx_facts : ∀ t : Fin cfg1.N, win1_0.index t (0 : Fin 2) = win1_1.index t (1 : Fin 2)
    ∧ win1_0.index t (1 : Fin 2) = win1_1.index t (0 : Fin 2) := by
  decide +kernel

abbrev v1_G (c : Dev nD) : S4096x4096.Idx → EReal := fun i => (V c main_arg1 : S4096x4096.Idx → EReal) (ix2 (i 1) (i 0))

theorem v1_flushed_eq (c : Dev nD) (t : Fin cfg1.N) :
    (dat1 (F := Ideal) V c).flushed 1 t = ((cfg1.win 1).blk t).view.read (Elt Ideal) (v1_G V c) := by
  show (cfg1.win 1).cut (grid1.coords t) ((dat1 V c).after 1 t) = _
  rw [after1_1]
  unfold out1_1
  rw [View.canon_unit_zero Cert.Hand.off2_zero]
  simp only [View.ld_unit_zero (S := S1024x1024) Cert.Hand.off2_zero]
  obtain ⟨e0, e1⟩ := v1_idx_facts t
  funext j
  obtain ⟨p, q, rfl⟩ : ∃ (p q : Fin 1024), j = ix2 p q := ⟨j 0, j 1, eq_ix2 j⟩
  refine (v1_pay (iblk1 V c 0 t) p q).trans (congrArg (V c main_arg1 : S4096x4096.Idx → EReal) (Shape.idx_ext₂ ?_ ?_))
  · show win1_0.index t (0 : Fin 2) * 1024 + 1 * q.val = win1_1.index t (1 : Fin 2) * 1024 + 1 * q.val; omega
  · show win1_0.index t (1 : Fin 2) * 1024 + 1 * p.val = win1_1.index t (0 : Fin 2) * 1024 + 1 * p.val; omega

theorem v1_idx_onto : ∀ (q0 q1 : Fin 4), ∃ t : Fin cfg1.N, win1_1.index t = ![q0.val, q1.val] := by
  decide +kernel

theorem v1_cover (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  obtain ⟨t, ht⟩ := v1_idx_onto ⟨(i 0).val / 1024, by omega⟩ ⟨(i 1).val / 1024, by omega⟩
  have q0 : win1_1.index t (0 : Fin 2) = (i 0).val / 1024 := congrFun ht 0
  have q1 : win1_1.index t (1 : Fin 2) = (i 1).val / 1024 := congrFun ht 1
  refine ⟨t, flush1_1 t, ?_⟩
  show i ∈ ((View.whole main_v13).slice (win1_1.rect t)).set
  rw [View.set_slice_whole, Rect.mem_set_unit]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 1024 ≤ (i 1).val ∧ (i 1).val < win1_1.index t (1 : Fin 2) * 1024 + 1024; omega

theorem final1 (c : Dev nD) (i j : Fin 4096) :
    ((dat1 (F := Ideal) V c).arrAt 1 cfg1.N : S4096x4096.Idx → EReal) (ix2 i j) = (V c main_arg1 : S4096x4096.Idx → EReal) (ix2 j i) :=
  congrFun ((dat1 (F := Ideal) V c).arrAt_eq_of_cover 1 (v1_G V c) (fun t _ => v1_flushed_eq V c t) v1_cover) (ix2 i j)

end Cert.KernelIdeal.Gen

end
-- ==== Proof.LibPlainMatmul.lean ====
import Idealize.ShloMosaic.PureOps.Ideal.Laws
import Idealize.ShloMosaic.Lib.ValueIdx

noncomputable section

namespace Idealize.ShloMosaic.PlainMatmul

open Idealize.ShloMosaic Idealize.ShloMosaic.ValueIdx

-- An `M × K` by `K × N` product into the zero accumulator, at `(r, n)`: row `r` of the left factor against column `n` of the right.
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl _ _).trans hk
      | ⟨1, _⟩ => rfl)
  rw [el, er]

end Idealize.ShloMosaic.PlainMatmul

end
-- ==== Proof.KI.V2.lean ====
import proofs.«106325_j17265768530288_1_alg».proof.Proof.KI.R2
import proofs.«106325_j17265768530288_1_alg».proof.Proof.Spec
import proofs.«106325_j17265768530288_1_alg».proof.Proof.LibPlainMatmul
import proofs.«106325_j17265768530288_1_alg».proof.Proof.LibSums
import proofs.«106325_j17265768530288_1_alg».proof.Proof.LibBlockOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable (V : (c : Dev nD) → (b : Ref sig .tc) → Buf (Elt Ideal) ((c : Thread nD τ).loc b))

theorem v2_word (a r : Nat) :
    IntOp.addi (Scalar.muli (BitVec.ofNat 32 a) 1024#32) (BitVec.ofNat 32 r) = BitVec.ofNat 32 (1024 * a + r) := by
  unfold Scalar.muli IntOp.muli IntOp.addi
  rw [BitVec.ofNat_add, BitVec.ofNat_mul, BitVec.mul_comm]

theorem v2_bcol_apply (col : FVec Ideal S1024x1 .f32) (r q : Fin 1024) :
    broadcastTo S1024x1024 col broadcasts_S1024x1_S1024x1024 (ix2 r q) = col (ix2 r (0 : Fin 1)) := by
  refine broadcastTo_apply col _ (ix2 r q) (ix2 r (0 : Fin 1)) fun ax => ?_
  match ax with
  | ⟨0, _⟩ =>
    show r.val = if (1024 : Nat) = 1 then 0 else r.val
    rw [if_neg (by decide)]
  | ⟨1, _⟩ => rfl

-- A column repeated along the lanes times an entry, the entry set to zero where global row 1024·a + r meets global column 1024·b + q.
theorem v2_scaled (a b : Nat) (ha : a < 4) (hb : b < 4) (col : FVec Ideal S1024x1 .f32) (e : EReal) (r q : Fin 1024) :
    broadcastTo S1024x1024 col broadcasts_S1024x1_S1024x1024 (ix2 r q)
        * Scalar.select (IntOp.cmpi .eq
            (IntOp.addi (Scalar.muli (BitVec.ofNat 32 a) 1024#32) (iota .tc S1024x1024 32 [0] iota_S1024x1024_d0_w32 (ix2 r q)))
            (IntOp.addi (Scalar.muli (BitVec.ofNat 32 b) 1024#32) (iota .tc S1024x1024 32 [1] iota_S1024x1024_d1_w32 (ix2 r q))))
          (Ideal.ofBits .f32 0x00000000#32) e
      = col (ix2 r (0 : Fin 1)) * (if 1024 * a + r.val = 1024 * b + q.val then 0 else e) := by
  rw [v2_bcol_apply, iota_single_apply, iota_single_apply]
  show _ * Scalar.select (IntOp.cmpi .eq (IntOp.addi _ (BitVec.ofNat 32 r.val)) (IntOp.addi _ (BitVec.ofNat 32 q.val))) _ _ = _
  rw [v2_word, v2_word, Cert.Hand.select_cmpi_eq_ofNat _ _ (by have := r.isLt; omega) (by have := q.isLt; omega), Ideal.ofBits_zero_f32]

-- Lane 0 of a 128-lane row block, cut out as a column.
theorem v2_col_apply (dg : Vec Ideal S1024x128 .f32) (r : Fin 1024) :
    extractStridedSlice S1024x1 ![0, 0] (shapeCast S1024x128 dg shapeCasts_S1024x128_S1024x128) slices_S1024x128_o0_0_S1024x1 (ix2 r (0 : Fin 1))
      = dg (ix2 r (0 : Fin 128)) := by
  refine (extractStridedSlice_apply _ _ _ (ix2 r (0 : Fin 1)) (ix2 r (0 : Fin 128)) fun a => ?_).trans (congrFun (shapeCast_self dg _) _)
  match a with
  | ⟨0, _⟩ => show r.val = 0 + r.val; omega
  | ⟨1, _⟩ => rfl

-- The masked entry is the off-diagonal part at the global indices.
theorem v2_offd (A : Fin 4096 → Fin 4096 → EReal) (I J : Fin 4096) (x y : Nat) (hI : I.val = x) (hJ : J.val = y) :
    (if x = y then 0 else A I J) = offd A I J := by
  subst hI hJ
  exact if_congr Fin.ext_iff.symm rfl rfl

theorem v2_pay3_apply (r cc : Fin 1024) : k2_pay3 (F := Ideal) (ix2 r cc) = 0 := by
  unfold k2_pay3
  exact (congrFun (shapeCast_self _ _) _).trans Ideal.ofBits_zero_f32

theorem v2_pay5_apply (i : grid2.Coords) (x : Vec Ideal S1024x1024 .f32) (dg : Vec Ideal S1024x128 .f32) (r q : Fin 1024) :
    k2_pay5 i x dg (ix2 r q) = dg (ix2 r (0 : Fin 128)) * (if 1024 * (i 0).val + r.val = 1024 * (i 2).val + q.val then 0 else x (ix2 r q)) :=
  (v2_scaled _ _ (i 0).isLt (i 2).isLt (k2_pay4 dg) (x (ix2 r q)) r q).trans (congrArg (· * _) (v2_col_apply dg r))

theorem v2_pay6_apply (i : grid2.Coords) (x : Vec Ideal S1024x1024 .f32) (dg : Vec Ideal S1024x128 .f32) (q cc : Fin 1024) :
    k2_pay6 i x dg (ix2 q cc) = dg (ix2 q (0 : Fin 128)) * (if 1024 * (i 2).val + q.val = 1024 * (i 1).val + cc.val then 0 else x (ix2 q cc)) :=
  (v2_scaled _ _ (i 2).isLt (i 1).isLt (k2_pay4 dg) (x (ix2 q cc)) q cc).trans (congrArg (· * _) (v2_col_apply dg q))

-- One accumulation step at (r, cc): what was there plus row r against column cc over the tile's 1024 columns.
theorem v2_pay1_apply (p q : FVec Ideal S1024x1024 .bf16) (prev : Vec Ideal S1024x1024 .f32) (r cc : Fin 1024) :
    k2_pay1 p q prev (ix2 r cc) = prev (ix2 r cc) + ∑ m : Fin 1024, p (ix2 r m) * q (ix2 m cc) := by
  unfold k2_pay1
  exact (congrFun (shapeCast_self _ _) _).trans
    (congrArg (prev (ix2 r cc) + ·) (Idealize.ShloMosaic.PlainMatmul.matmul_plain_zero_apply 1024 1024 1024 none p q r cc))

theorem v2_pay2_apply (a b : Nat) (ha : a < 4) (hb : b < 4) (dg : Vec Ideal S1024x128 .f32) (x acc : Vec Ideal S1024x1024 .f32) (r cc : Fin 1024) :
    k2_pay2 (Scalar.muli (BitVec.ofNat 32 a) 1024#32) (Scalar.muli (BitVec.ofNat 32 b) 1024#32) (k2_pay4 dg) x acc (ix2 r cc)
      = cHalf * (dg (ix2 r (0 : Fin 128)) * (if 1024 * a + r.val = 1024 * b + cc.val then 0 else x (ix2 r cc))) + cQuarter * acc (ix2 r cc) :=
  congrArg (cHalf * · + cQuarter * acc (ix2 r cc))
    ((v2_scaled a b ha hb (k2_pay4 dg) (x (ix2 r cc)) r cc).trans (congrArg (· * _) (v2_col_apply dg r)))

theorem v2_coords : ∀ t : Fin cfg2.N,
    (grid2.coords t 0).val = t.val / 16 ∧ (grid2.coords t 1).val = t.val / 4 % 4 ∧ (grid2.coords t 2).val = t.val % 4 := by
  decide +kernel

theorem v2_idx5 : ∀ t : Fin cfg2.N, win2_5.index t (0 : Fin 2) = t.val / 16 ∧ win2_5.index t (1 : Fin 2) = t.val / 4 % 4 := by
  decide +kernel

abbrev v2_A (c : Dev nD) : Fin 4096 → Fin 4096 → EReal := fun i j => (V c main_arg1 : S4096x4096.Idx → EReal) (ix2 i j)
abbrev v2_d (c : Dev nD) : Fin 4096 → EReal := fun i => (V c main_v12 : S4096x128.Idx → EReal) (ix2 i 0)

-- Windows 0, 1, 2 at point t = 16·a + 4·b + k are the tiles (a, k), (k, b), (a, b) of the matrix; windows 3, 4 the row tiles a, k of the scale.
theorem v2_lb_apply (c : Dev nD) (t : Fin cfg2.N) (r q : Fin 1024) (I J : Fin 4096)
    (hI : I.val = 1024 * (t.val / 16) + r.val) (hJ : J.val = 1024 * (t.val % 4) + q.val) :
    lb2 V c t (ix2 r q) = v2_A V c I J := by
  obtain ⟨e0, e1⟩ := (by decide +kernel : ∀ t : Fin cfg2.N, win2_0.index t (0 : Fin 2) = t.val / 16 ∧ win2_0.index t (1 : Fin 2) = t.val % 4) t
  refine congrArg (V c main_arg1 : S4096x4096.Idx → EReal) (Shape.idx_ext₂ ?_ ?_)
  · show win2_0.index t (0 : Fin 2) * 1024 + 1 * r.val = I.val; omega
  · show win2_0.index t (1 : Fin 2) * 1024 + 1 * q.val = J.val; omega

theorem v2_rb_apply (c : Dev nD) (t : Fin cfg2.N) (q cc : Fin 1024) (I J : Fin 4096)
    (hI : I.val = 1024 * (t.val % 4) + q.val) (hJ : J.val = 1024 * (t.val / 4 % 4) + cc.val) :
    rb2 V c t (ix2 q cc) = v2_A V c I J := by
  obtain ⟨e0, e1⟩ := (by decide +kernel : ∀ t : Fin cfg2.N, win2_1.index t (0 : Fin 2) = t.val % 4 ∧ win2_1.index t (1 : Fin 2) = t.val / 4 % 4) t
  refine congrArg (V c main_arg1 : S4096x4096.Idx → EReal) (Shape.idx_ext₂ ?_ ?_)
  · show win2_1.index t (0 : Fin 2) * 1024 + 1 * q.val = I.val; omega
  · show win2_1.index t (1 : Fin 2) * 1024 + 1 * cc.val = J.val; omega

theorem v2_db_apply (c : Dev nD) (t : Fin cfg2.N) (r cc : Fin 1024) (I J : Fin 4096)
    (hI : I.val = 1024 * (t.val / 16) + r.val) (hJ : J.val = 1024 * (t.val / 4 % 4) + cc.val) :
    db2 V c t (ix2 r cc) = v2_A V c I J := by
  obtain ⟨e0, e1⟩ := (by decide +kernel : ∀ t : Fin cfg2.N, win2_2.index t (0 : Fin 2) = t.val / 16 ∧ win2_2.index t (1 : Fin 2) = t.val / 4 % 4) t
  refine congrArg (V c main_arg1 : S4096x4096.Idx → EReal) (Shape.idx_ext₂ ?_ ?_)
  · show win2_2.index t (0 : Fin 2) * 1024 + 1 * r.val = I.val; omega
  · show win2_2.index t (1 : Fin 2) * 1024 + 1 * cc.val = J.val; omega

theorem v2_di_apply (c : Dev nD) (t : Fin cfg2.N) (r : Fin 1024) (I : Fin 4096) (hI : I.val = 1024 * (t.val / 16) + r.val) :
    di2 V c t (ix2 r (0 : Fin 128)) = v2_d V c I := by
  obtain ⟨e0, e1⟩ := (by decide +kernel : ∀ t : Fin cfg2.N, win2_3.index t (0 : Fin 2) = t.val / 16 ∧ win2_3.index t (1 : Fin 2) = 0) t
  refine congrArg (V c main_v12 : S4096x128.Idx → EReal) (Shape.idx_ext₂ ?_ ?_)
  · show win2_3.index t (0 : Fin 2) * 1024 + 1 * r.val = I.val; omega
  · show win2_3.index t (1 : Fin 2) * 128 + 1 * 0 = 0; omega

theorem v2_dk_apply (c : Dev nD) (t : Fin cfg2.N) (q : Fin 1024) (I : Fin 4096) (hI : I.val = 1024 * (t.val % 4) + q.val) :
    dk2 V c t (ix2 q (0 : Fin 128)) = v2_d V c I := by
  obtain ⟨e0, e1⟩ := (by decide +kernel : ∀ t : Fin cfg2.N, win2_4.index t (0 : Fin 2) = t.val % 4 ∧ win2_4.index t (1 : Fin 2) = 0) t
  refine congrArg (V c main_v12 : S4096x128.Idx → EReal) (Shape.idx_ext₂ ?_ ?_)
  · show win2_4.index t (0 : Fin 2) * 1024 + 1 * q.val = I.val; omega
  · show win2_4.index t (1 : Fin 2) * 128 + 1 * 0 = 0; omega

def v2_gi (s : Fin 4) (x : Fin 1024) : Fin 4096 := ⟨1024 * s.val + x.val, by have := s.isLt; have := x.isLt; omega⟩

section Tiles
variable (A : Fin 4096 → Fin 4096 → EReal) (d : Fin 4096 → EReal)

-- Row I of P against column J of P over the 1024 columns of column tile s.
def v2_T (I J : Fin 4096) (s : Fin 4) : EReal := ∑ m : Fin 1024, Pm A d I (v2_gi s m) * Pm A d (v2_gi s m) J

-- A tile that restarts from zero at k = 0 and adds the k-th tile product at every point holds, at k = 3, the product over all 4096 columns.
theorem v2_acc_last_of (acc : (n : ℕ) → n < 64 → S1024x1024.Idx → EReal) (r cc : Fin 1024) (I J : Fin 4096)
    (step : ∀ (n : ℕ) (h : n < 64) (s : Fin 4), I.val = 1024 * (n / 16) + r.val → J.val = 1024 * (n / 4 % 4) + cc.val → n % 4 = s.val →
      acc n h (ix2 r cc) = (if n % 4 = 0 then 0 else acc (n - 1) (by omega) (ix2 r cc)) + v2_T A d I J s)
    (n : ℕ) (h : n < 64) (h3 : n % 4 = 3) (hI : I.val = 1024 * (n / 16) + r.val) (hJ : J.val = 1024 * (n / 4 % 4) + cc.val) :
    acc n h (ix2 r cc) = ∑ m : Fin 4096, Pm A d I m * Pm A d m J := by
  rw [step n h 3 hI hJ h3, if_neg (by omega), step (n - 1) _ 2 (by omega) (by omega) (by omega), if_neg (by omega),
    step (n - 1 - 1) _ 1 (by omega) (by omega) (by omega), if_neg (by omega),
    step (n - 1 - 1 - 1) _ 0 (by omega) (by omega) (by omega), if_pos (by omega), zero_add,
    Cert.Hand.sum_blocks_fin 4 1024 rfl, Fin.sum_univ_four]
  rfl

end Tiles

theorem v2_step_apply (c : Dev nD) (t : Fin cfg2.N) (prev : Vec Ideal S1024x1024 .f32) (r cc : Fin 1024) (I J : Fin 4096) (s : Fin 4)
    (hI : I.val = 1024 * (t.val / 16) + r.val) (hJ : J.val = 1024 * (t.val / 4 % 4) + cc.val) (hs : t.val % 4 = s.val) :
    k2_pay1 (k2_pay5 (grid2.coords t) (lb2 V c t) (di2 V c t)) (k2_pay6 (grid2.coords t) (rb2 V c t) (dk2 V c t)) prev (ix2 r cc)
      = prev (ix2 r cc) + v2_T (v2_A V c) (v2_d V c) I J s := by
  obtain ⟨g0, g1, g2⟩ := v2_coords t
  rw [v2_pay1_apply]
  refine congrArg (prev (ix2 r cc) + ·) (Finset.sum_congr rfl fun m _ => ?_)
  have hm : (v2_gi s m).val = 1024 * (t.val % 4) + m.val := by show 1024 * s.val + m.val = _; rw [hs]
  rw [v2_pay5_apply, v2_pay6_apply, g0, g1, g2, v2_di_apply V c t r I hI, v2_lb_apply V c t r m I _ hI hm,
    v2_dk_apply V c t m _ hm, v2_rb_apply V c t m cc _ J hm hJ, v2_offd (v2_A V c) I _ _ _ hI hm, v2_offd (v2_A V c) _ J _ _ hm hJ]
  rfl

theorem v2_acc_last (c : Dev nD) (t : Fin cfg2.N) (h3 : t.val % 4 = 3) (r cc : Fin 1024) (I J : Fin 4096)
    (hI : I.val = 1024 * (t.val / 16) + r.val) (hJ : J.val = 1024 * (t.val / 4 % 4) + cc.val) :
    acc2 V c t.val t.isLt (ix2 r cc) = ∑ m : Fin 4096, Pm (v2_A V c) (v2_d V c) I m * Pm (v2_A V c) (v2_d V c) m J := by
  refine v2_acc_last_of (v2_A V c) (v2_d V c) (acc2 V c) r cc I J (fun n h s hI hJ hs => ?_) t.val t.isLt h3 hI hJ
  by_cases h0 : n % 4 = 0
  · rw [if_pos h0, acc2_first V c ⟨n, h⟩ h0, v2_step_apply V c ⟨n, h⟩ _ r cc I J s hI hJ hs, v2_pay3_apply]
  · rw [if_neg h0, acc2_next V c ⟨n, h⟩ h0, v2_step_apply V c ⟨n, h⟩ _ r cc I J s hI hJ hs]

theorem v2_out_apply (c : Dev nD) (t : Fin cfg2.N) (h3 : t.val % 4 = 3) (r cc : Fin 1024) (I J : Fin 4096)
    (hI : I.val = 1024 * (t.val / 16) + r.val) (hJ : J.val = 1024 * (t.val / 4 % 4) + cc.val) :
    (dat2 V c).after 5 t (ix2 r cc) = Km (v2_A V c) (v2_d V c) I J := by
  obtain ⟨g0, g1, -⟩ := v2_coords t
  rw [after2_5, v2_pay2_apply _ _ (grid2.coords t 0).isLt (grid2.coords t 1).isLt, g0, g1, v2_di_apply V c t r I hI,
    v2_db_apply V c t r cc I J hI hJ, v2_offd (v2_A V c) I J _ _ hI hJ, v2_acc_last V c t h3 r cc I J hI hJ]
  rfl

abbrev v2_G (c : Dev nD) : S4096x4096.Idx → EReal := fun y => Km (v2_A V c) (v2_d V c) (y 0) (y 1)

theorem v2_flushed_eq (c : Dev nD) (t : Fin cfg2.N) (hf : (cfg2.win 5).flush t = true) :
    (dat2 V c).flushed 5 t = ((cfg2.win 5).blk t).view.read (Elt Ideal) (v2_G V c) := by
  obtain ⟨e0, e1⟩ := v2_idx5 t
  funext y
  obtain ⟨r, cc, rfl⟩ : ∃ (r cc : Fin 1024), y = ix2 r cc := ⟨y 0, y 1, eq_ix2 y⟩
  refine v2_out_apply V c t ((flush2_5 t).mp hf) r cc _ _ ?_ ?_
  · show win2_5.index t (0 : Fin 2) * 1024 + 1 * r.val = _; omega
  · show win2_5.index t (1 : Fin 2) * 1024 + 1 * cc.val = _; omega

theorem v2_cover (i : S4096x4096.Idx) : ∃ t : Fin cfg2.N, (cfg2.win 5).flush t = true ∧ i ∈ ((cfg2.win 5).blk t).view.set := by
  have h0 : (i 0).val < 4096 := (i 0).isLt
  have h1 : (i 1).val < 4096 := (i 1).isLt
  have hN : cfg2.N = 64 := N_2
  obtain ⟨t, ht⟩ : ∃ t : Fin cfg2.N, t.val = 16 * ((i 0).val / 1024) + 4 * ((i 1).val / 1024) + 3 := ⟨⟨_, by omega⟩, rfl⟩
  obtain ⟨e0, e1⟩ := v2_idx5 t
  refine ⟨t, (flush2_5 t).mpr (by omega), ?_⟩
  show i ∈ ((View.whole main_v14).slice (win2_5.rect t)).set
  rw [View.set_slice_whole, Rect.mem_set_unit]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 1024 ≤ (i 1).val ∧ (i 1).val < win2_5.index t (1 : Fin 2) * 1024 + 1024; omega

theorem final2 (c : Dev nD) (i j : Fin 4096) :
    ((dat2 (F := Ideal) V c).arrAt 5 cfg2.N : S4096x4096.Idx → EReal) (ix2 i j)
      = Km (fun i j => (V c main_arg1 : S4096x4096.Idx → EReal) (ix2 i j)) (fun i => (V c main_v12 : S4096x128.Idx → EReal) (ix2 i 0)) i j := by
  rw [(dat2 V c).arrAt_eq_of_cover 5 (v2_G V c) (v2_flushed_eq V c) v2_cover]

end Cert.KernelIdeal.Gen

end
-- ==== Proof.KI.V3.lean ====
import proofs.«106325_j17265768530288_1_alg».proof.Proof.KI.R3
import proofs.«106325_j17265768530288_1_alg».proof.Proof.KI.V2
import proofs.«106325_j17265768530288_1_alg».proof.Proof.Spec
import proofs.«106325_j17265768530288_1_alg».proof.Proof.LibPlainMatmul
import proofs.«106325_j17265768530288_1_alg».proof.Proof.LibSums
import proofs.«106325_j17265768530288_1_alg».proof.Proof.LibBlockOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable (V : (c : Dev nD) → (b : Ref sig .tc) → Buf (Elt Ideal) ((c : Thread nD τ).loc b))

theorem v3_pay3_apply (r cc : Fin 1024) : k3_pay3 (F := Ideal) (ix2 r cc) = 0 := v2_pay3_apply r cc

-- The bf16 tile enters the payloads through an identity reshape; the right factor's scale column is cut out in place.
theorem v3_pay5_apply (i : grid3.Coords) (x : Vec Ideal S1024x1024 .bf16) (dg : Vec Ideal S1024x128 .f32) (r q : Fin 1024) :
    k3_pay5 i x dg (ix2 r q) = dg (ix2 r (0 : Fin 128)) * (if 1024 * (i 0).val + r.val = 1024 * (i 2).val + q.val then 0 else x (ix2 r q)) := by
  refine (v2_scaled _ _ (i 0).isLt (i 2).isLt (k3_pay4 dg) _ r q).trans ?_
  rw [shapeCast_self]
  exact congrArg (· * _) (v2_col_apply dg r)

theorem v3_pay6_apply (i : grid3.Coords) (x : Vec Ideal S1024x1024 .bf16) (dg : Vec Ideal S1024x128 .f32) (q cc : Fin 1024) :
    k3_pay6 i x dg (ix2 q cc) = dg (ix2 q (0 : Fin 128)) * (if 1024 * (i 2).val + q.val = 1024 * (i 1).val + cc.val then 0 else x (ix2 q cc)) := by
  refine (v2_scaled _ _ (i 2).isLt (i 1).isLt _ _ q cc).trans ?_
  rw [v2_col_apply, shapeCast_self, extf_apply]

-- Rounding the right factor to bf16 is the identity over the extended reals.
theorem v3_pay1_apply (p : FVec Ideal S1024x1024 .bf16) (q : FVec Ideal S1024x1024 .f32) (prev : Vec Ideal S1024x1024 .f32) (r cc : Fin 1024) :
    k3_pay1 p q prev (ix2 r cc) = prev (ix2 r cc) + ∑ m : Fin 1024, p (ix2 r m) * q (ix2 m cc) :=
  v2_pay1_apply p (truncf .bf16 q bitsLt_bf16_f32) prev r cc

theorem v3_pay2_apply (a b : Nat) (ha : a < 4) (hb : b < 4) (dg : Vec Ideal S1024x128 .f32) (x : Vec Ideal S1024x1024 .bf16)
    (acc : Vec Ideal S1024x1024 .f32) (r cc : Fin 1024) :
    k3_pay2 (Scalar.muli (BitVec.ofNat 32 a) 1024#32) (Scalar.muli (BitVec.ofNat 32 b) 1024#32) (k3_pay4 dg) x acc (ix2 r cc)
      = cHalf * (dg (ix2 r (0 : Fin 128)) * (if 1024 * a + r.val = 1024 * b + cc.val then 0 else x (ix2 r cc))) + cQuarter * acc (ix2 r cc) := by
  refine congrArg (cHalf * · + cQuarter * acc (ix2 r cc)) ((v2_scaled a b ha hb (k3_pay4 dg) _ r cc).trans ?_)
  rw [shapeCast_self]
  exact congrArg (· * _) (v2_col_apply dg r)

theorem v3_coords : ∀ t : Fin cfg3.N,
    (grid3.coords t 0).val = t.val / 16 ∧ (grid3.coords t 1).val = t.val / 4 % 4 ∧ (grid3.coords t 2).val = t.val % 4 := by
  decide +kernel

theorem v3_idx5 : ∀ t : Fin cfg3.N, win3_5.index t (0 : Fin 2) = t.val / 16 ∧ win3_5.index t (1 : Fin 2) = t.val / 4 % 4 := by
  decide +kernel

abbrev v3_A (c : Dev nD) : Fin 4096 → Fin 4096 → EReal := fun i j => (V c main_v13 : S4096x4096.Idx → EReal) (ix2 i j)
abbrev v3_d (c : Dev nD) : Fin 4096 → EReal := fun i => (V c main_v12 : S4096x128.Idx → EReal) (ix2 i 0)

-- Windows 0, 1, 2 at point t = 16·a + 4·b + k are the tiles (a, k), (k, b), (a, b) of the matrix; windows 3, 4 the row tiles a, k of the scale.
theorem v3_lb_apply (c : Dev nD) (t : Fin cfg3.N) (r q : Fin 1024) (I J : Fin 4096)
    (hI : I.val = 1024 * (t.val / 16) + r.val) (hJ : J.val = 1024 * (t.val % 4) + q.val) :
    lb3 V c t (ix2 r q) = v3_A V c I J := by
  obtain ⟨e0, e1⟩ := (by decide +kernel : ∀ t : Fin cfg3.N, win3_0.index t (0 : Fin 2) = t.val / 16 ∧ win3_0.index t (1 : Fin 2) = t.val % 4) t
  refine congrArg (V c main_v13 : S4096x4096.Idx → EReal) (Shape.idx_ext₂ ?_ ?_)
  · show win3_0.index t (0 : Fin 2) * 1024 + 1 * r.val = I.val; omega
  · show win3_0.index t (1 : Fin 2) * 1024 + 1 * q.val = J.val; omega

theorem v3_rb_apply (c : Dev nD) (t : Fin cfg3.N) (q cc : Fin 1024) (I J : Fin 4096)
    (hI : I.val = 1024 * (t.val % 4) + q.val) (hJ : J.val = 1024 * (t.val / 4 % 4) + cc.val) :
    rb3 V c t (ix2 q cc) = v3_A V c I J := by
  obtain ⟨e0, e1⟩ := (by decide +kernel : ∀ t : Fin cfg3.N, win3_1.index t (0 : Fin 2) = t.val % 4 ∧ win3_1.index t (1 : Fin 2) = t.val / 4 % 4) t
  refine congrArg (V c main_v13 : S4096x4096.Idx → EReal) (Shape.idx_ext₂ ?_ ?_)
  · show win3_1.index t (0 : Fin 2) * 1024 + 1 * q.val = I.val; omega
  · show win3_1.index t (1 : Fin 2) * 1024 + 1 * cc.val = J.val; omega

theorem v3_db_apply (c : Dev nD) (t : Fin cfg3.N) (r cc : Fin 1024) (I J : Fin 4096)
    (hI : I.val = 1024 * (t.val / 16) + r.val) (hJ : J.val = 1024 * (t.val / 4 % 4) + cc.val) :
    db3 V c t (ix2 r cc) = v3_A V c I J := by
  obtain ⟨e0, e1⟩ := (by decide +kernel : ∀ t : Fin cfg3.N, win3_2.index t (0 : Fin 2) = t.val / 16 ∧ win3_2.index t (1 : Fin 2) = t.val / 4 % 4) t
  refine congrArg (V c main_v13 : S4096x4096.Idx → EReal) (Shape.idx_ext₂ ?_ ?_)
  · show win3_2.index t (0 : Fin 2) * 1024 + 1 * r.val = I.val; omega
  · show win3_2.index t (1 : Fin 2) * 1024 + 1 * cc.val = J.val; omega

theorem v3_di_apply (c : Dev nD) (t : Fin cfg3.N) (r : Fin 1024) (I : Fin 4096) (hI : I.val = 1024 * (t.val / 16) + r.val) :
    di3 V c t (ix2 r (0 : Fin 128)) = v3_d V c I := by
  obtain ⟨e0, e1⟩ := (by decide +kernel : ∀ t : Fin cfg3.N, win3_3.index t (0 : Fin 2) = t.val / 16 ∧ win3_3.index t (1 : Fin 2) = 0) t
  refine congrArg (V c main_v12 : S4096x128.Idx → EReal) (Shape.idx_ext₂ ?_ ?_)
  · show win3_3.index t (0 : Fin 2) * 1024 + 1 * r.val = I.val; omega
  · show win3_3.index t (1 : Fin 2) * 128 + 1 * 0 = 0; omega

theorem v3_dk_apply (c : Dev nD) (t : Fin cfg3.N) (q : Fin 1024) (I : Fin 4096) (hI : I.val = 1024 * (t.val % 4) + q.val) :
    dk3 V c t (ix2 q (0 : Fin 128)) = v3_d V c I := by
  obtain ⟨e0, e1⟩ := (by decide +kernel : ∀ t : Fin cfg3.N, win3_4.index t (0 : Fin 2) = t.val % 4 ∧ win3_4.index t (1 : Fin 2) = 0) t
  refine congrArg (V c main_v12 : S4096x128.Idx → EReal) (Shape.idx_ext₂ ?_ ?_)
  · show win3_4.index t (0 : Fin 2) * 1024 + 1 * q.val = I.val; omega
  · show win3_4.index t (1 : Fin 2) * 128 + 1 * 0 = 0; omega

theorem v3_step_apply (c : Dev nD) (t : Fin cfg3.N) (prev : Vec Ideal S1024x1024 .f32) (r cc : Fin 1024) (I J : Fin 4096) (s : Fin 4)
    (hI : I.val = 1024 * (t.val / 16) + r.val) (hJ : J.val = 1024 * (t.val / 4 % 4) + cc.val) (hs : t.val % 4 = s.val) :
    k3_pay1 (k3_pay5 (grid3.coords t) (lb3 V c t) (di3 V c t)) (k3_pay6 (grid3.coords t) (rb3 V c t) (dk3 V c t)) prev (ix2 r cc)
      = prev (ix2 r cc) + v2_T (v3_A V c) (v3_d V c) I J s := by
  obtain ⟨g0, g1, g2⟩ := v3_coords t
  rw [v3_pay1_apply]
  refine congrArg (prev (ix2 r cc) + ·) (Finset.sum_congr rfl fun m _ => ?_)
  have hm : (v2_gi s m).val = 1024 * (t.val % 4) + m.val := by show 1024 * s.val + m.val = _; rw [hs]
  rw [v3_pay5_apply, v3_pay6_apply, g0, g1, g2, v3_di_apply V c t r I hI, v3_lb_apply V c t r m I _ hI hm,
    v3_dk_apply V c t m _ hm, v3_rb_apply V c t m cc _ J hm hJ, v2_offd (v3_A V c) I _ _ _ hI hm, v2_offd (v3_A V c) _ J _ _ hm hJ]
  rfl

theorem v3_acc_last (c : Dev nD) (t : Fin cfg3.N) (h3 : t.val % 4 = 3) (r cc : Fin 1024) (I J : Fin 4096)
    (hI : I.val = 1024 * (t.val / 16) + r.val) (hJ : J.val = 1024 * (t.val / 4 % 4) + cc.val) :
    acc3 V c t.val t.isLt (ix2 r cc) = ∑ m : Fin 4096, Pm (v3_A V c) (v3_d V c) I m * Pm (v3_A V c) (v3_d V c) m J := by
  refine v2_acc_last_of (v3_A V c) (v3_d V c) (acc3 V c) r cc I J (fun n h s hI hJ hs => ?_) t.val t.isLt h3 hI hJ
  by_cases h0 : n % 4 = 0
  · rw [if_pos h0, acc3_first V c ⟨n, h⟩ h0, v3_step_apply V c ⟨n, h⟩ _ r cc I J s hI hJ hs, v3_pay3_apply]
  · rw [if_neg h0, acc3_next V c ⟨n, h⟩ h0, v3_step_apply V c ⟨n, h⟩ _ r cc I J s hI hJ hs]

theorem v3_out_apply (c : Dev nD) (t : Fin cfg3.N) (h3 : t.val % 4 = 3) (r cc : Fin 1024) (I J : Fin 4096)
    (hI : I.val = 1024 * (t.val / 16) + r.val) (hJ : J.val = 1024 * (t.val / 4 % 4) + cc.val) :
    (dat3 V c).after 5 t (ix2 r cc) = Km (v3_A V c) (v3_d V c) I J := by
  obtain ⟨g0, g1, -⟩ := v3_coords t
  rw [after3_5, v3_pay2_apply _ _ (grid3.coords t 0).isLt (grid3.coords t 1).isLt, g0, g1, v3_di_apply V c t r I hI,
    v3_db_apply V c t r cc I J hI hJ, v2_offd (v3_A V c) I J _ _ hI hJ, v3_acc_last V c t h3 r cc I J hI hJ]
  rfl

abbrev v3_G (c : Dev nD) : S4096x4096.Idx → EReal := fun y => Km (v3_A V c) (v3_d V c) (y 0) (y 1)

theorem v3_flushed_eq (c : Dev nD) (t : Fin cfg3.N) (hf : (cfg3.win 5).flush t = true) :
    (dat3 V c).flushed 5 t = ((cfg3.win 5).blk t).view.read (Elt Ideal) (v3_G V c) := by
  obtain ⟨e0, e1⟩ := v3_idx5 t
  funext y
  obtain ⟨r, cc, rfl⟩ : ∃ (r cc : Fin 1024), y = ix2 r cc := ⟨y 0, y 1, eq_ix2 y⟩
  refine v3_out_apply V c t ((flush3_5 t).mp hf) r cc _ _ ?_ ?_
  · show win3_5.index t (0 : Fin 2) * 1024 + 1 * r.val = _; omega
  · show win3_5.index t (1 : Fin 2) * 1024 + 1 * cc.val = _; omega

theorem v3_cover (i : S4096x4096.Idx) : ∃ t : Fin cfg3.N, (cfg3.win 5).flush t = true ∧ i ∈ ((cfg3.win 5).blk t).view.set := by
  have h0 : (i 0).val < 4096 := (i 0).isLt
  have h1 : (i 1).val < 4096 := (i 1).isLt
  have hN : cfg3.N = 64 := N_3
  obtain ⟨t, ht⟩ : ∃ t : Fin cfg3.N, t.val = 16 * ((i 0).val / 1024) + 4 * ((i 1).val / 1024) + 3 := ⟨⟨_, by omega⟩, rfl⟩
  obtain ⟨e0, e1⟩ := v3_idx5 t
  refine ⟨t, (flush3_5 t).mpr (by omega), ?_⟩
  show i ∈ ((View.whole main_v15).slice (win3_5.rect t)).set
  rw [View.set_slice_whole, Rect.mem_set_unit]
  intro a
  match a with
  | ⟨0, _⟩ => show win3_5.index t (0 : Fin 2) * 1024 ≤ (i 0).val ∧ (i 0).val < win3_5.index t (0 : Fin 2) * 1024 + 1024; omega
  | ⟨1, _⟩ => show win3_5.index t (1 : Fin 2) * 1024 ≤ (i 1).val ∧ (i 1).val < win3_5.index t (1 : Fin 2) * 1024 + 1024; omega

theorem final3 (c : Dev nD) (i j : Fin 4096) :
    ((dat3 (F := Ideal) V c).arrAt 5 cfg3.N : S4096x4096.Idx → EReal) (ix2 i j)
      = Km (fun i j => (V c main_v13 : S4096x4096.Idx → EReal) (ix2 i j)) (fun i => (V c main_v12 : S4096x128.Idx → EReal) (ix2 i 0)) i j := by
  rw [(dat3 V c).arrAt_eq_of_cover 5 (v3_G V c) (v3_flushed_eq V c) v3_cover]

end Cert.KernelIdeal.Gen

end
-- ==== Proof.KI.V4.lean ====
import proofs.«106325_j17265768530288_1_alg».proof.Proof.KI.R4
import proofs.«106325_j17265768530288_1_alg».proof.Proof.Spec
import proofs.«106325_j17265768530288_1_alg».proof.Proof.LibPlainMatmul
import proofs.«106325_j17265768530288_1_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx Idealize.ShloMosaic.PlainMatmul Cert.Spec

theorem v4_pay1_apply (r : Fin 1024) (l : Fin 128) : (k4_pay1 (F := Ideal)) (ix2 r l) = 0 :=
  Ideal.ofBits_zero_f32

theorem v4_pay2_apply (v3 : FVec Ideal S1024x128 .f32) (v4 : FVec Ideal S1024x1024 .bf16) (v6 : FVec Ideal S1024x128 .f32)
    (r : Fin 1024) (l : Fin 128) :
    k4_pay2 v3 v4 v6 (ix2 r l) = v3 (ix2 r l) + ∑ kk : Fin 1024, v4 (ix2 r kk) * v6 (ix2 kk l) := by
  unfold k4_pay2
  simp only [shapeCast_self]
  exact congrArg (v3 (ix2 r l) + ·) (matmul_plain_zero_apply 1024 1024 128 none v4 (truncf .bf16 v6 bitsLt_bf16_f32) r l)

theorem v4_pay3_apply (v16 : FVec Ideal S1024x128 .f32) (v18 : FVec Ideal S128x128 .f32) (v22 : FVec Ideal S1x128 .f32)
    (r : Fin 1024) (q : Fin 128) :
    k4_pay3 v16 v18 v22 (ix2 r q)
      = max ((∑ l : Fin 128, v16 (ix2 r l) * v18 (ix2 l q)) + v22 (ix2 (0 : Fin 1) q)) 0 := by
  unfold k4_pay3
  simp only [shapeCast_self]
  exact congrArg₂ max (congrArg₂ (· + ·)
    (matmul_plain_zero_apply 1024 128 128 none (truncf .bf16 v16 bitsLt_bf16_f32) (truncf .bf16 v18 bitsLt_bf16_f32) r q)
    (broadcastTo_1b_ab_apply v22 broadcasts_S1x128_S1024x128 r q)) Ideal.ofBits_zero_f32

-- The block index of each window at a point of the 4 × 4 grid.
theorem v4_idx : ∀ t : Fin grid4.N, (win4_0.index t 0 = t.val / 4 ∧ win4_0.index t 1 = t.val % 4)
    ∧ (win4_1.index t 0 = t.val % 4 ∧ win4_1.index t 1 = 0) ∧ (win4_2.index t 0 = 0 ∧ win4_2.index t 1 = 0)
    ∧ (win4_3.index t 0 = 0 ∧ win4_3.index t 1 = 0) ∧ win4_4.index t 0 = t.val / 4 ∧ win4_4.index t 1 = 0 := by
  decide +kernel

variable (V : (c : Dev nD) → (b : Ref sig .tc) → Buf (Elt Ideal) ((c : Thread nD τ).loc b))

abbrev v4_K (c : Dev nD) : Fin 4096 → Fin 4096 → EReal := fun i j => (V c main_v14 : S4096x4096.Idx → EReal) (ix2 i j)
abbrev v4_x (c : Dev nD) : Fin 4096 → Fin 128 → EReal := fun j l => (V c main_arg0 : S4096x128.Idx → EReal) (ix2 j l)
abbrev v4_wt (c : Dev nD) : Fin 128 → Fin 128 → EReal := fun l q => (V c main_v16 : S128x128.Idx → EReal) (ix2 l q)
abbrev v4_b (c : Dev nD) : Fin 128 → EReal := fun q => (V c main_v18 : S1x128.Idx → EReal) (ix2 (0 : Fin 1) q)

theorem v4_kb_apply (c : Dev nD) (t : Fin cfg4.N) (r kk : Fin 1024) (i j : Fin 4096)
    (hi : i.val = 1024 * (t.val / 4) + r.val) (hj : j.val = 1024 * (t.val % 4) + kk.val) :
    kb4 (F := Ideal) V c t (ix2 r kk) = v4_K V c i j := by
  have hx := (v4_idx t).1
  refine congrArg (V c main_v14 : S4096x4096.Idx → EReal) (Shape.idx_ext₂ ?_ ?_)
  · show win4_0.index t 0 * 1024 + 1 * r.val = i.val; omega
  · show win4_0.index t 1 * 1024 + 1 * kk.val = j.val; omega

theorem v4_xb_apply (c : Dev nD) (t : Fin cfg4.N) (kk : Fin 1024) (l : Fin 128) (j : Fin 4096)
    (hj : j.val = 1024 * (t.val % 4) + kk.val) :
    xb4 (F := Ideal) V c t (ix2 kk l) = v4_x V c j l := by
  have hx := (v4_idx t).2.1
  refine congrArg (V c main_arg0 : S4096x128.Idx → EReal) (Shape.idx_ext₂ ?_ ?_)
  · show win4_1.index t 0 * 1024 + 1 * kk.val = j.val; omega
  · show win4_1.index t 1 * 128 + 1 * l.val = l.val; omega

theorem v4_wb_apply (c : Dev nD) (t : Fin cfg4.N) (l q : Fin 128) :
    wb4 (F := Ideal) V c t (ix2 l q) = v4_wt V c l q := by
  have hx := (v4_idx t).2.2.1
  refine congrArg (V c main_v16 : S128x128.Idx → EReal) (Shape.idx_ext₂ ?_ ?_)
  · show win4_2.index t 0 * 128 + 1 * l.val = l.val; omega
  · show win4_2.index t 1 * 128 + 1 * q.val = q.val; omega

theorem v4_bb_apply (c : Dev nD) (t : Fin cfg4.N) (q : Fin 128) :
    bb4 (F := Ideal) V c t (ix2 (0 : Fin 1) q) = v4_b V c q := by
  have hx := (v4_idx t).2.2.2.1
  refine congrArg (V c main_v18 : S1x128.Idx → EReal) (Shape.idx_ext₂ ?_ ?_)
  · show win4_3.index t 0 * 1 + 1 * 0 = 0; omega
  · show win4_3.index t 1 * 128 + 1 * q.val = q.val; omega

-- At the last point of a grid row the accumulator holds the product of the whole matrix row with x.
theorem v4_acc_last (c : Dev nD) (t : Fin cfg4.N) (h3 : t.val % 4 = 3) (r : Fin 1024) (l : Fin 128) (i : Fin 4096)
    (hi : i.val = 1024 * (t.val / 4) + r.val) :
    acc4 (F := Ideal) V c t.val t.isLt (ix2 r l) = ∑ j : Fin 4096, v4_K V c i j * v4_x V c j l :=
  Cert.Hand.acc_tiles4 (rfl : 4096 = 4 * 1024) (fun n h => acc4 (F := Ideal) V c n h (ix2 r l))
    (fun n h kk => kb4 (F := Ideal) V c ⟨n, h⟩ (ix2 r kk)) (fun n h kk => xb4 (F := Ideal) V c ⟨n, h⟩ (ix2 kk l))
    (v4_K V c i) (fun j => v4_x V c j l)
    (fun n h e => (congrFun (acc4_first (F := Ideal) V c ⟨n, h⟩ e) (ix2 r l)).trans
      ((v4_pay2_apply _ _ _ r l).trans (by rw [v4_pay1_apply, zero_add])))
    (fun n h e => (congrFun (acc4_next (F := Ideal) V c ⟨n + 1, h⟩ e) (ix2 r l)).trans (v4_pay2_apply _ _ _ r l))
    t.val t.isLt h3
    (fun n h kk j e hj => v4_kb_apply V c ⟨n, h⟩ r kk i j (by show i.val = 1024 * (n / 4) + r.val; omega) hj)
    (fun n h kk j hj => v4_xb_apply V c ⟨n, h⟩ kk l j hj)

theorem v4_out_apply (c : Dev nD) (t : Fin cfg4.N) (h3 : t.val % 4 = 3) (r : Fin 1024) (q : Fin 128) (i : Fin 4096)
    (hi : i.val = 1024 * (t.val / 4) + r.val) :
    k4_pay3 (acc4 (F := Ideal) V c t.val t.isLt) (wb4 (F := Ideal) V c t) (bb4 (F := Ideal) V c t) (ix2 r q)
      = upd (v4_K V c) (v4_x V c) (v4_wt V c) (v4_b V c) i q := by
  refine (v4_pay3_apply _ _ _ r q).trans ?_
  rw [v4_bb_apply V c t q]
  refine congrArg (fun z => max (z + v4_b V c q) 0) (Finset.sum_congr rfl fun l _ => ?_)
  rw [v4_acc_last V c t h3 r l i hi, v4_wb_apply V c t l q]

def v4_G (c : Dev nD) : Vec Ideal S4096x128 .f32 := fun idx =>
  upd (v4_K V c) (v4_x V c) (v4_wt V c) (v4_b V c) ⟨(idx 0).val, idx2_lt0 idx⟩ ⟨(idx 1).val, idx2_lt1 idx⟩

theorem v4_flushed_eq (c : Dev nD) (t : Fin cfg4.N) (hf : (cfg4.win 4).flush t = true) :
    (dat4 (F := Ideal) V c).flushed 4 t = ((cfg4.win 4).blk t).view.read (Elt Ideal) (v4_G V c) := by
  have hx := (v4_idx t).2.2.2.2
  have ht := t.isLt
  have hN : cfg4.N = 16 := N_4
  show (cfg4.win 4).cut (grid4.coords t) ((dat4 (F := Ideal) V c).after 4 t) = _
  rw [after4_4]
  funext j
  have hj0 : (j 0).val < 1024 := (j 0).isLt
  have hj1 : (j 1).val < 128 := (j 1).isLt
  show k4_pay3 (acc4 (F := Ideal) V c t.val t.isLt) (wb4 (F := Ideal) V c t) (bb4 (F := Ideal) V c t) j
    = v4_G V c (((cfg4.win 4).blk t).view.emb j)
  refine (congrArg (k4_pay3 _ _ _) (eq_ix2 j)).trans ((v4_out_apply V c t ((flush4_4 t).mp hf) ⟨(j 0).val, hj0⟩ ⟨(j 1).val, hj1⟩
    ⟨1024 * (t.val / 4) + (j 0).val, by omega⟩ rfl).trans ?_)
  unfold v4_G
  congr 1 <;> apply Fin.ext
  · show 1024 * (t.val / 4) + (j 0).val = win4_4.index t 0 * 1024 + 1 * (j 0).val; omega
  · show (j 1).val = win4_4.index t 1 * 128 + 1 * (j 1).val; omega

theorem v4_cover (i : S4096x128.Idx) :
    ∃ t : Fin cfg4.N, (cfg4.win 4).flush t = true ∧ i ∈ ((cfg4.win 4).blk t).view.set := by
  have h0 : (i 0 : Nat) < 4096 := (i 0).isLt
  have h1 : (i 1 : Nat) < 128 := (i 1).isLt
  obtain ⟨n, hn⟩ : ∃ n, n = 4 * ((i 0 : Nat) / 1024) + 3 := ⟨_, rfl⟩
  have hN : cfg4.N = 16 := N_4
  have hlt : n < cfg4.N := by omega
  have hx : win4_4.index ⟨n, hlt⟩ 0 = n / 4 ∧ win4_4.index ⟨n, hlt⟩ 1 = 0 := (v4_idx ⟨n, hlt⟩).2.2.2.2
  refine ⟨⟨n, hlt⟩, (flush4_4 _).mpr (by show n % 4 = 3; omega), ?_⟩
  show i ∈ ((View.whole main_v20).slice (win4_4.rect ⟨n, hlt⟩)).set
  rw [View.set_slice_whole, Rect.mem_set_unit]
  intro a
  match a with
  | ⟨0, _⟩ =>
    show win4_4.index ⟨n, hlt⟩ 0 * 1024 ≤ (i 0 : Nat) ∧ (i 0 : Nat) < win4_4.index ⟨n, hlt⟩ 0 * 1024 + 1024; omega
  | ⟨1, _⟩ =>
    show win4_4.index ⟨n, hlt⟩ 1 * 128 ≤ (i 1 : Nat) ∧ (i 1 : Nat) < win4_4.index ⟨n, hlt⟩ 1 * 128 + 128; omega

theorem final4 (c : Dev nD) (i : Fin 4096) (q : Fin 128) :
    ((dat4 (F := Ideal) V c).arrAt 4 cfg4.N : S4096x128.Idx → EReal) (ix2 i q)
      = upd (fun i j => (V c main_v14 : S4096x4096.Idx → EReal) (ix2 i j)) (fun j l => (V c main_arg0 : S4096x128.Idx → EReal) (ix2 j l))
          (fun l q => (V c main_v16 : S128x128.Idx → EReal) (ix2 l q)) (fun q => (V c main_v18 : S1x128.Idx → EReal) (ix2 0 q)) i q := by
  rw [(dat4 (F := Ideal) V c).arrAt_eq_of_cover 4 (v4_G V c) (v4_flushed_eq V c) v4_cover]
  rfl

end Cert.KernelIdeal.Gen

end
-- ==== Proof.KI.V5.lean ====
import proofs.«106325_j17265768530288_1_alg».proof.Proof.KI.R5
import proofs.«106325_j17265768530288_1_alg».proof.Proof.Spec
import proofs.«106325_j17265768530288_1_alg».proof.Proof.LibPlainMatmul
import proofs.«106325_j17265768530288_1_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx Idealize.ShloMosaic.PlainMatmul Cert.Spec

theorem v5_pay1_apply (r : Fin 1024) (l : Fin 128) : (k5_pay1 (F := Ideal)) (ix2 r l) = 0 :=
  Ideal.ofBits_zero_f32

theorem v5_pay2_apply (v3 : FVec Ideal S1024x128 .f32) (v4 : FVec Ideal S1024x1024 .bf16) (v6 : FVec Ideal S1024x128 .f32)
    (r : Fin 1024) (l : Fin 128) :
    k5_pay2 v3 v4 v6 (ix2 r l) = v3 (ix2 r l) + ∑ kk : Fin 1024, v4 (ix2 r kk) * v6 (ix2 kk l) := by
  unfold k5_pay2
  simp only [shapeCast_self]
  exact congrArg (v3 (ix2 r l) + ·) (matmul_plain_zero_apply 1024 1024 128 none v4 (truncf .bf16 v6 bitsLt_bf16_f32) r l)

theorem v5_pay3_apply (v16 : FVec Ideal S1024x128 .f32) (v18 : FVec Ideal S128x128 .f32) (v22 : FVec Ideal S1x128 .f32)
    (r : Fin 1024) (q : Fin 128) :
    k5_pay3 v16 v18 v22 (ix2 r q)
      = max ((∑ l : Fin 128, v16 (ix2 r l) * v18 (ix2 l q)) + v22 (ix2 (0 : Fin 1) q)) 0 := by
  unfold k5_pay3
  simp only [shapeCast_self]
  exact congrArg₂ max (congrArg₂ (· + ·)
    (matmul_plain_zero_apply 1024 128 128 none (truncf .bf16 v16 bitsLt_bf16_f32) (truncf .bf16 v18 bitsLt_bf16_f32) r q)
    (broadcastTo_1b_ab_apply v22 broadcasts_S1x128_S1024x128 r q)) Ideal.ofBits_zero_f32

-- The block index of each window at a point of the 4 × 4 grid.
theorem v5_idx : ∀ t : Fin grid5.N, (win5_0.index t 0 = t.val / 4 ∧ win5_0.index t 1 = t.val % 4)
    ∧ (win5_1.index t 0 = t.val % 4 ∧ win5_1.index t 1 = 0) ∧ (win5_2.index t 0 = 0 ∧ win5_2.index t 1 = 0)
    ∧ (win5_3.index t 0 = 0 ∧ win5_3.index t 1 = 0) ∧ win5_4.index t 0 = t.val / 4 ∧ win5_4.index t 1 = 0 := by
  decide +kernel

variable (V : (c : Dev nD) → (b : Ref sig .tc) → Buf (Elt Ideal) ((c : Thread nD τ).loc b))

abbrev v5_K (c : Dev nD) : Fin 4096 → Fin 4096 → EReal := fun i j => (V c main_v15 : S4096x4096.Idx → EReal) (ix2 i j)
abbrev v5_x (c : Dev nD) : Fin 4096 → Fin 128 → EReal := fun j l => (V c main_arg0 : S4096x128.Idx → EReal) (ix2 j l)
abbrev v5_wt (c : Dev nD) : Fin 128 → Fin 128 → EReal := fun l q => (V c main_v17 : S128x128.Idx → EReal) (ix2 l q)
abbrev v5_b (c : Dev nD) : Fin 128 → EReal := fun q => (V c main_v19 : S1x128.Idx → EReal) (ix2 (0 : Fin 1) q)

theorem v5_kb_apply (c : Dev nD) (t : Fin cfg5.N) (r kk : Fin 1024) (i j : Fin 4096)
    (hi : i.val = 1024 * (t.val / 4) + r.val) (hj : j.val = 1024 * (t.val % 4) + kk.val) :
    kb5 (F := Ideal) V c t (ix2 r kk) = v5_K V c i j := by
  have hx := (v5_idx t).1
  refine congrArg (V c main_v15 : S4096x4096.Idx → EReal) (Shape.idx_ext₂ ?_ ?_)
  · show win5_0.index t 0 * 1024 + 1 * r.val = i.val; omega
  · show win5_0.index t 1 * 1024 + 1 * kk.val = j.val; omega

theorem v5_xb_apply (c : Dev nD) (t : Fin cfg5.N) (kk : Fin 1024) (l : Fin 128) (j : Fin 4096)
    (hj : j.val = 1024 * (t.val % 4) + kk.val) :
    xb5 (F := Ideal) V c t (ix2 kk l) = v5_x V c j l := by
  have hx := (v5_idx t).2.1
  refine congrArg (V c main_arg0 : S4096x128.Idx → EReal) (Shape.idx_ext₂ ?_ ?_)
  · show win5_1.index t 0 * 1024 + 1 * kk.val = j.val; omega
  · show win5_1.index t 1 * 128 + 1 * l.val = l.val; omega

theorem v5_wb_apply (c : Dev nD) (t : Fin cfg5.N) (l q : Fin 128) :
    wb5 (F := Ideal) V c t (ix2 l q) = v5_wt V c l q := by
  have hx := (v5_idx t).2.2.1
  refine congrArg (V c main_v17 : S128x128.Idx → EReal) (Shape.idx_ext₂ ?_ ?_)
  · show win5_2.index t 0 * 128 + 1 * l.val = l.val; omega
  · show win5_2.index t 1 * 128 + 1 * q.val = q.val; omega

theorem v5_bb_apply (c : Dev nD) (t : Fin cfg5.N) (q : Fin 128) :
    bb5 (F := Ideal) V c t (ix2 (0 : Fin 1) q) = v5_b V c q := by
  have hx := (v5_idx t).2.2.2.1
  refine congrArg (V c main_v19 : S1x128.Idx → EReal) (Shape.idx_ext₂ ?_ ?_)
  · show win5_3.index t 0 * 1 + 1 * 0 = 0; omega
  · show win5_3.index t 1 * 128 + 1 * q.val = q.val; omega

-- At the last point of a grid row the accumulator holds the product of the whole matrix row with x.
theorem v5_acc_last (c : Dev nD) (t : Fin cfg5.N) (h3 : t.val % 4 = 3) (r : Fin 1024) (l : Fin 128) (i : Fin 4096)
    (hi : i.val = 1024 * (t.val / 4) + r.val) :
    acc5 (F := Ideal) V c t.val t.isLt (ix2 r l) = ∑ j : Fin 4096, v5_K V c i j * v5_x V c j l :=
  Cert.Hand.acc_tiles4 (rfl : 4096 = 4 * 1024) (fun n h => acc5 (F := Ideal) V c n h (ix2 r l))
    (fun n h kk => kb5 (F := Ideal) V c ⟨n, h⟩ (ix2 r kk)) (fun n h kk => xb5 (F := Ideal) V c ⟨n, h⟩ (ix2 kk l))
    (v5_K V c i) (fun j => v5_x V c j l)
    (fun n h e => (congrFun (acc5_first (F := Ideal) V c ⟨n, h⟩ e) (ix2 r l)).trans
      ((v5_pay2_apply _ _ _ r l).trans (by rw [v5_pay1_apply, zero_add])))
    (fun n h e => (congrFun (acc5_next (F := Ideal) V c ⟨n + 1, h⟩ e) (ix2 r l)).trans (v5_pay2_apply _ _ _ r l))
    t.val t.isLt h3
    (fun n h kk j e hj => v5_kb_apply V c ⟨n, h⟩ r kk i j (by show i.val = 1024 * (n / 4) + r.val; omega) hj)
    (fun n h kk j hj => v5_xb_apply V c ⟨n, h⟩ kk l j hj)

theorem v5_out_apply (c : Dev nD) (t : Fin cfg5.N) (h3 : t.val % 4 = 3) (r : Fin 1024) (q : Fin 128) (i : Fin 4096)
    (hi : i.val = 1024 * (t.val / 4) + r.val) :
    k5_pay3 (acc5 (F := Ideal) V c t.val t.isLt) (wb5 (F := Ideal) V c t) (bb5 (F := Ideal) V c t) (ix2 r q)
      = upd (v5_K V c) (v5_x V c) (v5_wt V c) (v5_b V c) i q := by
  refine (v5_pay3_apply _ _ _ r q).trans ?_
  rw [v5_bb_apply V c t q]
  refine congrArg (fun z => max (z + v5_b V c q) 0) (Finset.sum_congr rfl fun l _ => ?_)
  rw [v5_acc_last V c t h3 r l i hi, v5_wb_apply V c t l q]

def v5_G (c : Dev nD) : Vec Ideal S4096x128 .f32 := fun idx =>
  upd (v5_K V c) (v5_x V c) (v5_wt V c) (v5_b V c) ⟨(idx 0).val, idx2_lt0 idx⟩ ⟨(idx 1).val, idx2_lt1 idx⟩

theorem v5_flushed_eq (c : Dev nD) (t : Fin cfg5.N) (hf : (cfg5.win 4).flush t = true) :
    (dat5 (F := Ideal) V c).flushed 4 t = ((cfg5.win 4).blk t).view.read (Elt Ideal) (v5_G V c) := by
  have hx := (v5_idx t).2.2.2.2
  have ht := t.isLt
  have hN : cfg5.N = 16 := N_5
  show (cfg5.win 4).cut (grid5.coords t) ((dat5 (F := Ideal) V c).after 4 t) = _
  rw [after5_4]
  funext j
  have hj0 : (j 0).val < 1024 := (j 0).isLt
  have hj1 : (j 1).val < 128 := (j 1).isLt
  show k5_pay3 (acc5 (F := Ideal) V c t.val t.isLt) (wb5 (F := Ideal) V c t) (bb5 (F := Ideal) V c t) j
    = v5_G V c (((cfg5.win 4).blk t).view.emb j)
  refine (congrArg (k5_pay3 _ _ _) (eq_ix2 j)).trans ((v5_out_apply V c t ((flush5_4 t).mp hf) ⟨(j 0).val, hj0⟩ ⟨(j 1).val, hj1⟩
    ⟨1024 * (t.val / 4) + (j 0).val, by omega⟩ rfl).trans ?_)
  unfold v5_G
  congr 1 <;> apply Fin.ext
  · show 1024 * (t.val / 4) + (j 0).val = win5_4.index t 0 * 1024 + 1 * (j 0).val; omega
  · show (j 1).val = win5_4.index t 1 * 128 + 1 * (j 1).val; omega

theorem v5_cover (i : S4096x128.Idx) :
    ∃ t : Fin cfg5.N, (cfg5.win 4).flush t = true ∧ i ∈ ((cfg5.win 4).blk t).view.set := by
  have h0 : (i 0 : Nat) < 4096 := (i 0).isLt
  have h1 : (i 1 : Nat) < 128 := (i 1).isLt
  obtain ⟨n, hn⟩ : ∃ n, n = 4 * ((i 0 : Nat) / 1024) + 3 := ⟨_, rfl⟩
  have hN : cfg5.N = 16 := N_5
  have hlt : n < cfg5.N := by omega
  have hx : win5_4.index ⟨n, hlt⟩ 0 = n / 4 ∧ win5_4.index ⟨n, hlt⟩ 1 = 0 := (v5_idx ⟨n, hlt⟩).2.2.2.2
  refine ⟨⟨n, hlt⟩, (flush5_4 _).mpr (by show n % 4 = 3; omega), ?_⟩
  show i ∈ ((View.whole main_v21).slice (win5_4.rect ⟨n, hlt⟩)).set
  rw [View.set_slice_whole, Rect.mem_set_unit]
  intro a
  match a with
  | ⟨0, _⟩ =>
    show win5_4.index ⟨n, hlt⟩ 0 * 1024 ≤ (i 0 : Nat) ∧ (i 0 : Nat) < win5_4.index ⟨n, hlt⟩ 0 * 1024 + 1024; omega
  | ⟨1, _⟩ =>
    show win5_4.index ⟨n, hlt⟩ 1 * 128 ≤ (i 1 : Nat) ∧ (i 1 : Nat) < win5_4.index ⟨n, hlt⟩ 1 * 128 + 128; omega

theorem final5 (c : Dev nD) (i : Fin 4096) (q : Fin 128) :
    ((dat5 (F := Ideal) V c).arrAt 4 cfg5.N : S4096x128.Idx → EReal) (ix2 i q)
      = upd (fun i j => (V c main_v15 : S4096x4096.Idx → EReal) (ix2 i j)) (fun j l => (V c main_arg0 : S4096x128.Idx → EReal) (ix2 j l))
          (fun l q => (V c main_v17 : S128x128.Idx → EReal) (ix2 l q)) (fun q => (V c main_v19 : S1x128.Idx → EReal) (ix2 0 q)) i q := by
  rw [(dat5 (F := Ideal) V c).arrAt_eq_of_cover 4 (v5_G V c) (v5_flushed_eq V c) v5_cover]
  rfl

end Cert.KernelIdeal.Gen

end
-- ==== Proof.KI.Value.lean ====
import proofs.«106325_j17265768530288_1_alg».proof.Proof.KI.Run
import proofs.«106325_j17265768530288_1_alg».proof.Proof.KI.HostVal
import proofs.«106325_j17265768530288_1_alg».proof.Proof.KI.V0
import proofs.«106325_j17265768530288_1_alg».proof.Proof.KI.V1
import proofs.«106325_j17265768530288_1_alg».proof.Proof.KI.V2
import proofs.«106325_j17265768530288_1_alg».proof.Proof.KI.V3
import proofs.«106325_j17265768530288_1_alg».proof.Proof.KI.V4
import proofs.«106325_j17265768530288_1_alg».proof.Proof.KI.V5

noncomputable section

namespace Cert.KernelIdeal.Gen

open Idealize.ShloMosaic Idealize.ShloMosaic.TcCoe Idealize.ShloMosaic.StableHlo Idealize.ShloMosaic.ValueIdx Cert.Spec
open Idealize.SL Idealize.SL.Sem

-- The update depends on its four arrays only through their entries.
theorem upd_congr {n f o : ℕ} {K K' : Fin n → Fin n → EReal} {x x' : Fin n → Fin f → EReal} {wt wt' : Fin f → Fin o → EReal}
    {b b' : Fin o → EReal} (hK : ∀ i j, K i j = K' i j) (hX : ∀ j l, x j l = x' j l) (hW : ∀ l q, wt l q = wt' l q)
    (hB : ∀ q, b q = b' q) (i : Fin n) (q : Fin o) : upd K x wt b i q = upd K' x' wt' b' i q := by
  rw [funext₂ hK, funext₂ hX, funext₂ hW, funext hB]

variable (mI : (ℓ : Loc nD τ sig) → Buf (Elt Ideal) ℓ) (c : Dev nD)

abbrev aX : Fin 4096 → Fin 128 → EReal := fun j l => (mI ((c : Thread nD τ).loc main_arg0) : S4096x128.Idx → EReal) (ix2 j l)
abbrev aA : Fin 4096 → Fin 4096 → EReal := fun i j => (mI ((c : Thread nD τ).loc main_arg1) : S4096x4096.Idx → EReal) (ix2 i j)
abbrev aW1 : Fin 128 → Fin 128 → EReal := fun l q => (mI ((c : Thread nD τ).loc main_arg2) : S128x128.Idx → EReal) (ix2 q l)
abbrev aB1 : Fin 128 → EReal := fun q => (mI ((c : Thread nD τ).loc main_arg3) : S128.Idx → EReal) (ix1 q)
abbrev aW2 : Fin 128 → Fin 128 → EReal := fun l q => (mI ((c : Thread nD τ).loc main_arg4) : S128x128.Idx → EReal) (ix2 q l)
abbrev aB2 : Fin 128 → EReal := fun q => (mI ((c : Thread nD τ).loc main_arg5) : S128.Idx → EReal) (ix1 q)

theorem val_rows (i : Fin 4096) (l : Fin 128) :
    (Wv1 mI c (Proc.devRef .tc main_v0_0) : S4096x128.Idx → EReal) (ix2 i l) = ∑ j, offd (aA mI c) i j :=
  (congrFun (Wv1_arr mI c 1) (ix2 i l)).trans (final0_rows (Vr0 mI) c i l)

theorem val_cols (u : Fin 8) (j : Fin 4096) :
    (Wv1 mI c (Proc.devRef .tc main_v0_1) : S8x4096.Idx → EReal) (ix2 u j) = ∑ i, offd (aA mI c) i j :=
  (congrFun (Wv1_arr mI c 2) (ix2 u j)).trans (final0_cols (Vr0 mI) c u j)

theorem val_d (i : Fin 4096) (l : Fin 128) :
    (Wv4 mI c (Proc.devRef .tc main_v12) : S4096x128.Idx → EReal) (ix2 i l) = dinv (aA mI c) i := by
  rw [show (Wv4 mI c (Proc.devRef .tc main_v12) : S4096x128.Idx → EReal) = _ from hv_v12_of (Wv1 mI c),
    hv_dinv_apply, val_rows, val_cols]
  rfl

theorem val_T (i j : Fin 4096) :
    (Wv5 mI c (Proc.devRef .tc main_v13) : S4096x4096.Idx → EReal) (ix2 i j) = aA mI c j i :=
  ((congrFun (Wv5_arr mI c 1) (ix2 i j)).trans (final1 (Vr4 mI) c i j)).trans (congrFun (arg1_at4 mI c) (ix2 j i))

theorem val_K1 (i j : Fin 4096) :
    (Wv8 mI c (Proc.devRef .tc main_v14) : S4096x4096.Idx → EReal) (ix2 i j) = Km (aA mI c) (dinv (aA mI c)) i j := by
  refine (congrFun (v14_at8 mI c) (ix2 i j)).trans ?_
  refine (congrFun (Wv6_out mI c) (ix2 i j)).trans ?_
  refine (final2 (Vr5 mI) c i j).trans ?_
  exact congrArg₂ (fun A d => Km A d i j)
    (funext fun i => funext fun j => congrFun (arg1_at5 mI c) (ix2 i j))
    (funext fun i => (congrFun (v12_at5 mI c) (ix2 i 0)).trans (val_d mI c i 0))

theorem val_K2 (i j : Fin 4096) :
    (Wv9 mI c (Proc.devRef .tc main_v15) : S4096x4096.Idx → EReal) (ix2 i j) = Km (fun i j => aA mI c j i) (dinv (aA mI c)) i j := by
  refine (congrFun (v15_at9 mI c) (ix2 i j)).trans ?_
  refine (congrFun (Wv7_out mI c) (ix2 i j)).trans ?_
  refine (final3 (Vr6 mI) c i j).trans ?_
  exact congrArg₂ (fun A d => Km A d i j)
    (funext fun i => funext fun j => (congrFun (v13_at6 mI c) (ix2 i j)).trans (val_T mI c i j))
    (funext fun i => (congrFun (v12_at6 mI c) (ix2 i 0)).trans (val_d mI c i 0))

theorem val_W1 (l q : Fin 128) : (Wv8 mI c (Proc.devRef .tc main_v16) : S128x128.Idx → EReal) (ix2 l q) = aW1 mI c l q := by
  rw [show (Wv8 mI c (Proc.devRef .tc main_v16) : S128x128.Idx → EReal) = _ from hv_v16_of (Wv7 mI c), hv_T_apply]
  exact congrFun (arg2_at7 mI c) (ix2 q l)
theorem val_W2 (l q : Fin 128) : (Wv9 mI c (Proc.devRef .tc main_v17) : S128x128.Idx → EReal) (ix2 l q) = aW2 mI c l q := by
  refine (congrFun (v17_at9 mI c) (ix2 l q)).trans ?_
  rw [show (Wv8 mI c (Proc.devRef .tc main_v17) : S128x128.Idx → EReal) = _ from hv_v17_of (Wv7 mI c), hv_T_apply]
  exact congrFun (arg4_at7 mI c) (ix2 q l)
theorem val_B1 (q : Fin 128) : (Wv8 mI c (Proc.devRef .tc main_v18) : S1x128.Idx → EReal) (ix2 0 q) = aB1 mI c q := by
  rw [show (Wv8 mI c (Proc.devRef .tc main_v18) : S1x128.Idx → EReal) = _ from hv_v18_of (Wv7 mI c), hv_row_apply]
  exact congrFun (arg3_at7 mI c) (ix1 q)
theorem val_B2 (q : Fin 128) : (Wv9 mI c (Proc.devRef .tc main_v19) : S1x128.Idx → EReal) (ix2 0 q) = aB2 mI c q := by
  refine (congrFun (v19_at9 mI c) (ix2 0 q)).trans ?_
  rw [show (Wv8 mI c (Proc.devRef .tc main_v19) : S1x128.Idx → EReal) = _ from hv_v19_of (Wv7 mI c), hv_row_apply]
  exact congrFun (arg5_at7 mI c) (ix1 q)

theorem val_out1 (i : Fin 4096) (q : Fin 128) :
    (Wv10 mI c (Proc.devRef .tc main_v20) : S4096x128.Idx → EReal) (ix2 i q)
      = upd (Km (aA mI c) (dinv (aA mI c))) (aX mI c) (aW1 mI c) (aB1 mI c) i q := by
  refine (congrFun (v20_at10 mI c) (ix2 i q)).trans ((congrFun (Wv9_arr mI c 4) (ix2 i q)).trans ((final4 (Vr8 mI) c i q).trans ?_))
  exact upd_congr (val_K1 mI c) (fun j l => congrFun (arg0_at8 mI c) (ix2 j l)) (val_W1 mI c) (val_B1 mI c) i q

theorem val_out2 (i : Fin 4096) (q : Fin 128) :
    (Wv10 mI c (Proc.devRef .tc main_v21) : S4096x128.Idx → EReal) (ix2 i q)
      = upd (Km (fun i j => aA mI c j i) (dinv (aA mI c))) (aX mI c) (aW2 mI c) (aB2 mI c) i q := by
  refine (congrFun (Wv10_arr mI c 4) (ix2 i q)).trans ((final5 (Vr9 mI) c i q).trans ?_)
  exact upd_congr (val_K2 mI c) (fun j l => congrFun (arg0_at9 mI c) (ix2 j l)) (val_W2 mI c) (val_B2 mI c) i q

theorem kernel_value (i : Fin 4096) (q : Fin 128) :
    (Wv11 mI c (Proc.devRef .tc main_v22) : S4096x128.Idx → EReal) (ix2 i q)
      = res (aX mI c) (aA mI c) (aW1 mI c) (aB1 mI c) (aW2 mI c) (aB2 mI c) i q := by
  exact (congrFun (hv_v22_of (Wv10 mI c)) (ix2 i q)).trans
    (congrArg₂ (fun (a b : EReal) => a + b) (val_out1 mI c i q) (val_out2 mI c i q))

end Cert.KernelIdeal.Gen

end
-- ==== Proof.RefValue.lean ====
import proofs.«106325_j17265768530288_1_alg».proof.Proof.Gen.ReferenceIdeal.Read
import proofs.«106325_j17265768530288_1_alg».proof.Proof.Spec
import Idealize.ShloMosaic.Lib.ValueIdx
import Idealize.ShloMosaic.Lib.IdealHost
import Idealize.ShloMosaic.Lib.Pipeline.Value
import Idealize.ShloMosaic.Lib.Affine
import Idealize.ShloMosaic.PureOps.Ideal.Laws

noncomputable section

namespace Cert.ReferenceIdeal.RefValue

open Cert.ReferenceIdeal Cert.ReferenceIdeal.Gen Cert.ReferenceIdeal.Read Cert.Spec Idealize.ShloMosaic Idealize.ShloMosaic.ValueIdx

-- The word of comparing row number plus zero with column number, read unsigned: 1 on the diagonal, 0 off it.
theorem eye_word (r c : Nat) (hr : r < 2 ^ 32) (hc : c < 2 ^ 32) :
    FloatOps.uitofp (F := Ideal) .f32 (IntOp.cmpi .eq (IntOp.addi (BitVec.ofNat 32 r) 0#32) (BitVec.ofNat 32 c))
      = if r = c then (1 : EReal) else 0 := by
  have hw : IntOp.cmpi .eq (IntOp.addi (BitVec.ofNat 32 r) 0#32) (BitVec.ofNat 32 c) = 1#1 ↔ r = c :=
    IntOp.cmpi_eq.trans (by
      show BitVec.ofNat 32 r + 0#32 = _ ↔ _
      rw [BitVec.add_zero, ← BitVec.toNat_inj, BitVec.toNat_ofNat, BitVec.toNat_ofNat, Nat.mod_eq_of_lt hr, Nat.mod_eq_of_lt hc])
  show (((IntOp.cmpi .eq (IntOp.addi (BitVec.ofNat 32 r) 0#32) (BitVec.ofNat 32 c)).toNat : ℝ) : EReal) = _
  by_cases h : r = c
  · rw [hw.mpr h, if_pos h]; simp
  · rw [eq_zero_of_ne_one (mt hw.mp h), if_neg h]; simp

-- Multiplying by one minus the diagonal indicator replaces the diagonal by zero.
theorem mul_one_sub_eye {n : Nat} (a : EReal) (i j : Fin n) :
    a * (Ideal.ofBits .f32 0x3F800000#32 - (if i.val = j.val then (1 : EReal) else 0)) = if i = j then 0 else a := by
  rw [Ideal.ofBits_one_f32]
  by_cases h : i = j
  · subst h
    rw [if_pos rfl, if_pos rfl]
    have : (1 : EReal) - 1 = 0 := by
      rw [show (1 : EReal) = ((1 : ℝ) : EReal) by norm_cast, ← EReal.coe_sub]; norm_num
    rw [this, mul_zero]
  · rw [if_neg fun e => h (Fin.ext e), if_neg h, sub_zero, mul_one]

variable (x0 : (⟨S4096x128, .f32⟩ : BufTy).Contents (Elt Ideal)) (x1 : (⟨S4096x4096, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

abbrev matA : Fin 4096 → Fin 4096 → EReal := fun i j => (x1 : S4096x4096.Idx → EReal) (ix2 i j)
abbrev matX : Fin 4096 → Fin 128 → EReal := fun j l => (x0 : S4096x128.Idx → EReal) (ix2 j l)
abbrev matWt : Fin 128 → Fin 128 → EReal := fun l q => (x2 : S128x128.Idx → EReal) (ix2 q l)
abbrev vecB : Fin 128 → EReal := fun q => (x3 : S128.Idx → EReal) (ix1 q)

theorem v8_at (i j : Fin 4096) : val_main_v8 (F := Ideal) x1 (ix2 i j) = offd (matA x1) i j := by
  rw [val_main_v8_apply, val_main_v7_apply, val_main_v6_apply, val_main_cst_apply, val_main_v5_apply, val_main_v4_apply,
    val_main_v3_apply, val_main_v0_apply, val_main_v2_apply, val_main_c_apply, val_main_v1_apply]
  exact (congrArg (fun z => matA x1 i j * (Ideal.ofBits .f32 0x3F800000#32 - z))
    (eye_word i.val j.val (by have := i.isLt; omega) (by have := j.isLt; omega))).trans (mul_one_sub_eye _ i j)

theorem v9_at (i : Fin 4096) : val_main_v9 (F := Ideal) x1 (ix1 i) = ∑ j, offd (matA x1) i j := by
  rw [val_main_v9_apply, val_main_cst_0_apply, Ideal.ofBits_def, Ideal.ofBits_zero_f32, zero_add]
  refine Finset.sum_congr rfl fun k _ => ?_
  have e : idx_main_v9 (ix1 i) k = ix2 i k := Shape.idx_ext₂ rfl rfl
  rw [e, v8_at]

theorem v10_at (i : Fin 4096) : val_main_v10 (F := Ideal) x1 (ix1 i) = ∑ j, offd (matA x1) j i := by
  rw [val_main_v10_apply, val_main_cst_1_apply, Ideal.ofBits_def, Ideal.ofBits_zero_f32, zero_add]
  refine Finset.sum_congr rfl fun k _ => ?_
  have e : idx_main_v10 (ix1 i) k = ix2 k i := Shape.idx_ext₂ rfl rfl
  rw [e, v8_at]

theorem v16_at (i : Fin 4096) : val_main_v16 (F := Ideal) x1 (ix1 i) = dinv (matA x1) i := by
  rw [val_main_v16_apply, val_main_v13_apply, val_main_v12_apply, val_main_cst_2_apply, val_main_call0_v1_apply,
    val_main_call0_v0_apply, val_main_cst_4_apply, val_main_v15_apply, val_main_v14_apply, val_main_cst_3_apply,
    val_main_v11_apply, v9_at, v10_at]
  simp only [Ideal.ofBits_def, Ideal.ofBits_zero_f32, Ideal.cmpf_def, Ideal.hostDivf_def, Ideal.addf_def]
  rfl

theorem v19_at (i j : Fin 4096) : val_main_v19 (F := Ideal) x1 (ix2 i j) = Pm (matA x1) (dinv (matA x1)) i j := by
  have e : idx_main_v17 (idx_main_v18 (ix2 i j)) = ix1 i := funext fun a => Fin.ext (by match a with | ⟨0, _⟩ => rfl)
  rw [val_main_v19_apply, val_main_v18_apply, val_main_v17_apply, e, v16_at, v8_at, Ideal.mulf_def]
  rfl

theorem v27_at (i j : Fin 4096) : val_main_v27 (F := Ideal) x1 (ix2 i j) = Km (matA x1) (dinv (matA x1)) i j := by
  have hs : val_main_v24 (F := Ideal) x1 (ix2 i j)
      = ∑ k, Pm (matA x1) (dinv (matA x1)) i k * Pm (matA x1) (dinv (matA x1)) k j := by
    rw [val_main_v24_apply]
    refine Finset.sum_congr rfl fun k _ => ?_
    have el : lidx_main_v24 (ix2 i j) k = ix2 i k := Shape.idx_ext₂ rfl rfl
    have er : ridx_main_v24 (ix2 i j) k = ix2 k j := Shape.idx_ext₂ rfl rfl
    rw [el, er, v19_at, v19_at]
  rw [val_main_v27_apply, val_main_v23_apply, val_main_v20_apply, val_main_cst_5_apply, val_main_v22_apply,
    val_main_v21_apply, val_main_cst_6_apply, val_main_v26_apply, val_main_v25_apply, val_main_cst_7_apply, hs, v19_at]
  simp only [Ideal.ofBits_def, Ideal.ofBits_zero_f32, Ideal.addf_def, Ideal.mulf_def, zero_add]
  rfl

theorem v28_at (i : Fin 4096) (l : Fin 128) :
    val_main_v28 (F := Ideal) x0 x1 (ix2 i l) = ∑ j, Km (matA x1) (dinv (matA x1)) i j * matX x0 j l := by
  rw [val_main_v28_apply]
  refine Finset.sum_congr rfl fun k _ => ?_
  have el : lidx_main_v28 (ix2 i l) k = ix2 i k := Shape.idx_ext₂ rfl rfl
  have er : ridx_main_v28 (ix2 i l) k = ix2 k l := Shape.idx_ext₂ rfl rfl
  rw [el, er, v27_at]

-- One branch: the update along the matrix the branch is given.
theorem v34_at (i : Fin 4096) (q : Fin 128) :
    val_main_v34 (F := Ideal) x0 x1 x2 x3 (ix2 i q)
      = upd (Km (matA x1) (dinv (matA x1))) (matX x0) (matWt x2) (vecB x3) i q := by
  have hs : val_main_v30 (F := Ideal) x0 x1 x2 (ix2 i q)
      = ∑ l, (∑ j, Km (matA x1) (dinv (matA x1)) i j * matX x0 j l) * matWt x2 l q := by
    rw [val_main_v30_apply]
    refine Finset.sum_congr rfl fun k _ => ?_
    have el : lidx_main_v30 (ix2 i q) k = ix2 i k := Shape.idx_ext₂ rfl rfl
    have er : idx_main_v29 (ridx_main_v30 (ix2 i q) k) = ix2 q k := Shape.idx_ext₂ rfl rfl
    rw [el, v28_at, val_main_v29_apply, er]
  have eb : idx_main_v31 (idx_main_v32 (ix2 i q)) = ix1 q := funext fun a => Fin.ext (by match a with | ⟨0, _⟩ => rfl)
  rw [val_main_v34_apply, val_main_v33_apply, hs, val_main_v32_apply, val_main_v31_apply, eb,
    val_main_call1_v0_apply, val_main_call1_cst_apply]
  simp only [Ideal.ofBits_def, Ideal.ofBits_zero_f32, Ideal.addf_def, Ideal.maximumf_def]
  rfl

-- The second branch is the first one's text over the transposed matrix, so it unfolds to the same term.
theorem ref_eq (i : Fin 4096) (q : Fin 128) :
    val_main_v71 (F := Ideal) x0 x1 x2 x3 x4 x5 (ix2 i q)
      = res (fun j l => (x0 : S4096x128.Idx → EReal) (ix2 j l)) (fun i j => (x1 : S4096x4096.Idx → EReal) (ix2 i j))
          (fun l q => (x2 : S128x128.Idx → EReal) (ix2 q l)) (fun q => (x3 : S128.Idx → EReal) (ix1 q))
          (fun l q => (x4 : S128x128.Idx → EReal) (ix2 q l)) (fun q => (x5 : S128.Idx → EReal) (ix1 q)) i q := by
  have e : matA (val_main_v35 (F := Ideal) x1) = fun i j => matA x1 j i := funext fun i => funext fun j =>
    (val_main_v35_apply x1 (ix2 i j)).trans (congrArg x1 (Shape.idx_ext₂ rfl rfl))
  rw [val_main_v71_apply, v34_at,
    show val_main_v70 (F := Ideal) x0 x1 x4 x5 = val_main_v34 (F := Ideal) x0 (val_main_v35 (F := Ideal) x1) x4 x5 from rfl,
    v34_at, Ideal.addf_def, e, dinv_transpose (matA x1)]
  rfl

end Cert.ReferenceIdeal.RefValue

end
-- ==== Proof.lean ====
import proofs.«106325_j17265768530288_1_alg».proof.Defs
import proofs.«106325_j17265768530288_1_alg».proof.Proof.Gen.Kernel
import proofs.«106325_j17265768530288_1_alg».proof.Proof.Gen.KernelIdeal
import proofs.«106325_j17265768530288_1_alg».proof.Proof.Gen.ReferenceIdeal
import proofs.«106325_j17265768530288_1_alg».proof.Proof.Gen.ReferenceIdeal.Run
import proofs.«106325_j17265768530288_1_alg».proof.Proof.Gen.ReferenceIdeal.Read
import proofs.«106325_j17265768530288_1_alg».proof.Proof.Gen.Pre_finite_inputs
import proofs.«106325_j17265768530288_1_alg».proof.Proof.K.Run
import proofs.«106325_j17265768530288_1_alg».proof.Proof.KI.Value
import proofs.«106325_j17265768530288_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame_all m ρ

theorem frame_ki : Cert.frame_KernelIdeal := fun m ρ _ => Cert.KernelIdeal.Gen.frame_all m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the specification's function of the agreeing arguments. -/
theorem algebraic : Cert.algebraic_KernelIdeal_ReferenceIdeal := by
  intro m ρ m' ρ' _ hagree
  refine ⟨fun c => Cert.KernelIdeal.Gen.Wv11 m c (Proc.devRef .tc Cert.KernelIdeal.main_v22), ?_, ?_⟩
  · exact (θ_run Cert.KernelIdeal.defs _ _).mono (fun _ h c =>
      ⟨h c _ (Cert.KernelIdeal.Gen.mem_uc Cert.KernelIdeal.main_v22 (by decide)),
       (h c _ (Cert.KernelIdeal.Gen.mem_uc Cert.KernelIdeal.main_arg0 (by decide))).trans (Cert.KernelIdeal.Gen.arg0_at11 m c),
       (h c _ (Cert.KernelIdeal.Gen.mem_uc Cert.KernelIdeal.main_arg1 (by decide))).trans (Cert.KernelIdeal.Gen.arg1_at11 m c),
       (h c _ (Cert.KernelIdeal.Gen.mem_uc Cert.KernelIdeal.main_arg2 (by decide))).trans (Cert.KernelIdeal.Gen.arg2_at11 m c),
       (h c _ (Cert.KernelIdeal.Gen.mem_uc Cert.KernelIdeal.main_arg3 (by decide))).trans (Cert.KernelIdeal.Gen.arg3_at11 m c),
       (h c _ (Cert.KernelIdeal.Gen.mem_uc Cert.KernelIdeal.main_arg4 (by decide))).trans (Cert.KernelIdeal.Gen.arg4_at11 m c),
       (h c _ (Cert.KernelIdeal.Gen.mem_uc Cert.KernelIdeal.main_arg5 (by decide))).trans (Cert.KernelIdeal.Gen.arg5_at11 m c)⟩)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq]
    funext idx
    obtain ⟨i, q, rfl⟩ : ∃ (i : Fin 4096) (q : Fin 128), idx = ix2 i q := ⟨idx 0, idx 1, eq_ix2 idx⟩
    rw [(hagree c).1, (hagree c).2.1, (hagree c).2.2.1, (hagree c).2.2.2.1, (hagree c).2.2.2.2.1, (hagree c).2.2.2.2.2]
    exact (Cert.ReferenceIdeal.RefValue.ref_eq _ _ _ _ _ _ i q).trans (Cert.KernelIdeal.Gen.kernel_value m c i q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
